-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4 : Shape := ⟨2, ![50000, 4]⟩
abbrev S2x800000 : Shape := ⟨2, ![2, 800000]⟩
abbrev S50000 : Shape := ⟨1, ![50000]⟩
abbrev S4x64 : Shape := ⟨2, ![4, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x4 : Shape := ⟨2, ![32, 4]⟩
abbrev S4 : Shape := ⟨1, ![4]⟩
abbrev S_ : Shape := ⟨0, ![]⟩

class Facts : Prop where
  bcast_S_S50000x4 : S_.BroadcastsInDim S50000x4 (![] : Fin 0 → Fin S50000x4.rank)
  reducesTo_S50000x4_S_d0_1 : S50000x4.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x4 : S_.BroadcastsInDim S32x4 (![] : Fin 0 → Fin S32x4.rank)
  reducesTo_S32x4_S_d0_1 : S32x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  main_v53

def fn_part2 {F : FTy → Type} [FloatOps F] (main_arg9 : FVec F S64x32 .f32) (main_arg10 : FVec F S32 .f32) (main_arg11 : FVec F S32x4 .f32) (main_arg12 : FVec F S4 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x4 .f32 := Host.absf main_arg11
  let main_cst_16 : FVec F S_ .f32 := constant S_ .f32 0x7F800000#32
  let main_v45 : FVec F S32x4 .f32 := broadcastInDim S32x4 ![] bcast_S_S32x4 main_cst_16
  let main_v46 : IVec S32x4 1 := cmpf .olt main_v44 main_v45
  let main_c_17 : IVec S_ 1 := constantI S_ 1 1#1
  let main_v47 : IVec S_ 1 := (fun x v => Host.reduce IntOp.andi x v reducesTo_S32x4_S_d0_1 h_S_) main_v46 main_c_17
  let main_v48 : IVec S_ 1 := andi main_v43 main_v47
  let main_v49 : FVec F S4 .f32 := Host.absf main_arg12
  let main_cst_18 : FVec F S_ .f32 := constant S_ .f32 0x7F800000#32
  let main_v50 : FVec F S4 .f32 := broadcastInDim S4 ![] bcast_S_S4 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x32 .f32) (main_arg10 : FVec F S32 .f32) (main_arg11 : FVec F S32x4 .f32) (main_arg12 : FVec F S4 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x4 .f32) (main_arg1 : IVec S2x800000 32) (main_arg2 : IVec S50000 32) (main_arg3 : FVec F S4x64 .f32) (main_arg4 : FVec F S64 .f32) (main_arg5 : FVec F S64x64 .f32) (main_arg6 : FVec F S64 .f32) (main_arg7 : FVec F S64x64 .f32) (main_arg8 : FVec F S64 .f32) (main_arg9 : FVec F S64x32 .f32) (main_arg10 : FVec F S32 .f32) (main_arg11 : FVec F S32x4 .f32) (main_arg12 : FVec F S4 .f32) : IVec S_ 1 :=
  let main_v0 : FVec F S50000x4 .f32 := Host.absf main_arg0
  let main_cst : FVec F S_ .f32 := constant S_ .f32 0x7F800000#32
  let main_v1 : FVec F S50000x4 .f32 := broadcastInDim S50000x4 ![] bcast_S_S50000x4 main_cst
  let main_v2 : IVec S50000x4 1 := cmpf .olt main_v0 main_v1
  let main_c : IVec S_ 1 := constantI S_ 1 1#1
  let main_v3 : IVec S_ 1 := (fun x v => Host.reduce IntOp.andi x v reducesTo_S50000x4_S_d0_1 h_S_) main_v2 main_c
  let main_v4 : FVec F S4x64 .f32 := Host.absf main_arg3
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S50000x4 : Shape := ⟨2, ![50000, 4]⟩
abbrev S2x800000 : Shape := ⟨2, ![2, 800000]⟩
abbrev S50000 : Shape := ⟨1, ![50000]⟩
abbrev S4x64 : Shape := ⟨2, ![4, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x4 : Shape := ⟨2, ![32, 4]⟩
abbrev S4 : Shape := ⟨1, ![4]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S10000x4 : Shape := ⟨2, ![10000, 4]⟩
abbrev S10000x64 : Shape := ⟨2, ![10000, 64]⟩
abbrev S850000x64 : Shape := ⟨2, ![850000, 64]⟩
abbrev S1x64 : Shape := ⟨2, ![1, 64]⟩
abbrev S50000x1 : Shape := ⟨2, ![50000, 1]⟩
abbrev S1x32 : Shape := ⟨2, ![1, 32]⟩
abbrev S1x4 : Shape := ⟨2, ![1, 4]⟩
abbrev S64x4 : Shape := ⟨2, ![64, 4]⟩
abbrev S10000x1 : Shape := ⟨2, ![10000, 1]⟩
abbrev S64x1 : Shape := ⟨2, ![64, 1]⟩

abbrev nBuf : Space → Nat
  | .hbm => 117
  | .vmem => 41
  | .smem => 0
  | _ => 0

abbrev bufTy : (tb : Table) → Fin (tcTables nBuf tb) → BufTy
  | .hbm, ⟨0, _⟩ => ⟨S50000x4, .f32⟩
  | .hbm, ⟨1, _⟩ => ⟨S2x800000, .i32⟩
  | .hbm, ⟨2, _⟩ => ⟨S50000, .i32⟩
  | .hbm, ⟨3, _⟩ => ⟨S4x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x4, .f32⟩
  | .hbm, ⟨12, _⟩ => ⟨S4, .f32⟩
  | .hbm, ⟨13, _⟩ => ⟨S50000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S1x800000, .i32⟩
  | .hbm, ⟨18, _⟩ => ⟨S800000, .i32⟩
  | .hbm, ⟨19, _⟩ => ⟨S850000, .i32⟩
  | .hbm, ⟨20, _⟩ => ⟨S_, .f32⟩
  | .hbm, ⟨21, _⟩ => ⟨S850000, .f32⟩
  | .hbm, ⟨22, _⟩ => ⟨S_, .f32⟩
  | .hbm, ⟨23, _⟩ => ⟨S50000, .f32⟩
  | .hbm, ⟨24, _⟩ => ⟨S850000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000, .f32⟩
  | .hbm, ⟨55, _⟩ => ⟨S850000, .f32⟩
  | .hbm, ⟨56, _⟩ => ⟨S50000x64, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x64, .f32⟩
  | .hbm, ⟨66, _⟩ => ⟨S850000x1, .f32⟩
  | .hbm, ⟨67, _⟩ => ⟨S850000x64, .f32⟩
  | .hbm, ⟨68, _⟩ => ⟨S850000x64, .f32⟩
  | .hbm, ⟨69, _⟩ => ⟨S_, .f32⟩
  | .hbm, ⟨70, _⟩ => ⟨S50000x64, .f32⟩
  | .hbm, ⟨71, _⟩ => ⟨S850000x1, .i32⟩
  | .hbm, ⟨72, _⟩ => ⟨S50000x64, .f32⟩
  | .hbm, ⟨73, _⟩ => ⟨S1x64, .f32⟩
  | .hbm, ⟨74, _⟩ => ⟨S50000x64, .f32⟩
  | .hbm, ⟨75, _⟩ => ⟨S50000x64, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x64, .f32⟩
  | .hbm, ⟨85, _⟩ => ⟨S850000x1, .f32⟩
  | .hbm, ⟨86, _⟩ => ⟨S850000x64, .f32⟩
  | .hbm, ⟨87, _⟩ => ⟨S850000x64, .f32⟩
  | .hbm, ⟨88, _⟩ => ⟨S_, .f32⟩
  | .hbm, ⟨89, _⟩ => ⟨S50000x64, .f32⟩
  | .hbm, ⟨90, _⟩ => ⟨S850000x1, .i32⟩
  | .hbm, ⟨91, _⟩ => ⟨S50000x64, .f32⟩
  | .hbm, ⟨92, _⟩ => ⟨S1x64, .f32⟩
  | .hbm, ⟨93, _⟩ => ⟨S50000x64, .f32⟩
  | .hbm, ⟨94, _⟩ => ⟨S50000x64, .f32⟩
  | .hbm, ⟨95, _⟩ => ⟨S_, .i32⟩
  | .hbm, ⟨96, _⟩ => ⟨S850000, .i32⟩
  | .hbm, ⟨97, _⟩ => ⟨S850000, .i1⟩
  | .hbm, ⟨98, _⟩ => ⟨S_, .i32⟩
  | .hbm, ⟨99, _⟩ => ⟨S850000, .i32⟩
  | .hbm, ⟨100, _⟩ => ⟨S850000, .i32⟩
  | .hbm, ⟨101, _⟩ => ⟨S850000, .i32⟩
  | .hbm, ⟨102, _⟩ => ⟨S850000x1, .i32⟩
  | .hbm, ⟨103, _⟩ => ⟨S850000x64, .f32⟩
  | .hbm, ⟨104, _⟩ => ⟨S850000x1, .f32⟩
  | .hbm, ⟨105, _⟩ => ⟨S850000x64, .f32⟩
  | .hbm, ⟨106, _⟩ => ⟨S850000x64, .f32⟩
  | .hbm, ⟨107, _⟩ => ⟨S_, .f32⟩
  | .hbm, ⟨108, _⟩ => ⟨S50000x64, .f32⟩
  | .hbm, ⟨109, _⟩ => ⟨S850000x1, .i32⟩
  | .hbm, ⟨110, _⟩ => ⟨S50000x64, .f32⟩
  | .hbm, ⟨111, _⟩ => ⟨S1x64, .f32⟩
  | .hbm, ⟨112, _⟩ => ⟨S50000x64, .f32⟩
  | .hbm, ⟨113, _⟩ => ⟨S50000x1, .i32⟩
  | .hbm, ⟨114, _⟩ => ⟨S1x32, .f32⟩
  | .hbm, ⟨115, _⟩ => ⟨S1x4, .f32⟩
  | .hbm, ⟨116, _⟩ => ⟨S64x4, .f32⟩
  | .local _ .vmem, ⟨0, _⟩ => ⟨S10000x4, .f32⟩
  | .local _ .vmem, ⟨1, _⟩ => ⟨S10000x4, .f32⟩
  | .local _ .vmem, ⟨2, _⟩ => ⟨S4x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x1, .i32⟩
  | .local _ .vmem, ⟨33, _⟩ => ⟨S10000x1, .i32⟩
  | .local _ .vmem, ⟨34, _⟩ => ⟨S64x32, .f32⟩
  | .local _ .vmem, ⟨35, _⟩ => ⟨S1x32, .f32⟩
  | .local _ .vmem, ⟨36, _⟩ => ⟨S32x4, .f32⟩
  | .local _ .vmem, ⟨37, _⟩ => ⟨S1x4, .f32⟩
  | .local _ .vmem, ⟨38, _⟩ => ⟨S64x4, .f32⟩
  | .local _ .vmem, ⟨39, _⟩ => ⟨S64x64, .f32⟩
  | .local _ .vmem, ⟨40, _⟩ => ⟨S64x1, .f32⟩
  | _, _ => ⟨S50000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_10 : Ref sig .tc := ⟨.hbm, 76, rfl⟩
abbrev main_v49 : Ref sig .tc := ⟨.hbm, 77, rfl⟩
abbrev main_v50 : Ref sig .tc := ⟨.hbm, 78, rfl⟩
abbrev main_c_11 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_12 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_13 : Ref sig .tc := ⟨.hbm, 95, rfl⟩
abbrev main_v65 : Ref sig .tc := ⟨.hbm, 96, rfl⟩
abbrev main_v66 : Ref sig .tc := ⟨.hbm, 97, rfl⟩
abbrev main_c_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_15 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc6_stg3_0 : Ref sig .tc := ⟨.vmem, 35, rfl⟩
abbrev cc6_stg4_0 : Ref sig .tc := ⟨.vmem, 36, rfl⟩
abbrev cc6_stg5_0 : Ref sig .tc := ⟨.vmem, 37, rfl⟩
abbrev cc6_stg6_0 : Ref sig .tc := ⟨.vmem, 38, rfl⟩
abbrev cc6_scratch0 : Ref sig .tc := ⟨.vmem, 39, rfl⟩
abbrev cc6_scratch1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34
abbrev cc6_sem3_0 : DmaSem sig := 35
abbrev cc6_sem4_0 : DmaSem sig := 36
abbrev cc6_sem5_0 : DmaSem sig := 37
abbrev cc6_sem6_0 : DmaSem sig := 38

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![5], ![false]⟩

def k6_cond2 (i : grid6.Coords) : BitVec 1 :=
  let arg0 : BitVec 32 := BitVec.ofNat 32 (i 0).val
  let c4_i32 : BitVec 32 := 4#32
  let v27 : BitVec 1 := Scalar.cmpi .eq arg0 c4_i32
  let v28 : BitVec 32 := Scalar.extui v27
  let c0_i32_14 : BitVec 32 := 0#32
  let v29 : BitVec 1 := Scalar.cmpi .ne v28 c0_i32_14
  v29

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S32x4 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x4 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S64x4 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x4_S10000x4_0_0 : ∀ a, (![0, 0] : Fin 2 → Nat) a + S10000x4.size a ≤ S10000x4.size a
  h_S10000x4 : 0 < S10000x4.numel
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S50000_S50000x1 : S50000.ShapeCasts S50000x1
  shapeCasts_S32_S1x32 : S32.ShapeCasts S1x32
  shapeCasts_S4_S1x4 : S4.ShapeCasts S1x4
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x64_d1_w32 : S10000x64.Iotas .tc 32 [1]
  broadcasts_S10000x1_S10000x64 : S10000x1.Broadcasts S10000x64
  natLt_1_32 : 1 < 32
  broadcasts_S64x1_S64x64 : S64x1.Broadcasts S64x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S32x4_S32x4_0_0 : ∀ a, (![0, 0] : Fin 2 → Nat) a + S32x4.size a ≤ S32x4.size a
  h_S32x4 : 0 < S32x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S64x4 : S1x4.Broadcasts S64x4
  inb_S64x4_S64x4_0_0 : ∀ a, (![0, 0] : Fin 2 → Nat) a + S64x4.size a ≤ S64x4.size a
  h_S64x4 : 0 < S64x4.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x4_S4x64_S10000x64_1_0_0_1_n_n_wf : DotDims.WF S10000x4 S4x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x64_S10000x64_1_0_0_1_n_n_wf : DotDims.WF S10000x64 S64x64 S10000x64 [1] [0] [0] [1] [] []
  dot_S10000x64_S10000x64_S64x64_0_0_1_1_n_n_wf : DotDims.WF S10000x64 S10000x64 S64x64 [0] [0] [1] [1] [] []
  dot_S10000x64_S10000x1_S64x1_0_0_1_1_n_n_wf : DotDims.WF S10000x64 S10000x1 S64x1 [0] [0] [1] [1] [] []
  dot_S64x64_S64x32_S64x32_1_0_0_1_n_n_wf : DotDims.WF S64x64 S64x32 S64x32 [1] [0] [0] [1] [] []
  dot_S64x32_S32x4_S64x4_1_0_0_1_n_n_wf : DotDims.WF S64x32 S32x4 S64x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S50000x4.size a
  hwx0_0 : ∀ i : grid0.Coords, EltTy.bits .f32 = 32 ∨ (Rect.block (s := S50000x4) S10000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S50000x64.size a
  hwx3_2 : ∀ i : grid3.Coords, EltTy.bits .f32 = 32 ∨ (Rect.block (s := S50000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S50000x64.size a
  hwx4_2 : ∀ i : grid4.Coords, EltTy.bits .f32 = 32 ∨ (Rect.block (s := S50000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S50000x64.size a
  hwx5_2 : ∀ i : grid5.Coords, EltTy.bits .f32 = 32 ∨ (Rect.block (s := S50000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S50000x64.size a
  hwx6_0 : ∀ i : grid6.Coords, EltTy.bits .f32 = 32 ∨ (Rect.block (s := S50000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x1.size a ≤ S50000x1.size a
  hwx6_1 : ∀ i : grid6.Coords, EltTy.bits .i32 = 32 ∨ (Rect.block (s := S50000x1) S10000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x32.size a ≤ S64x32.size a
  hwx6_2 : ∀ i : grid6.Coords, EltTy.bits .f32 = 32 ∨ (Rect.block (s := S64x32) S64x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x32.size a ≤ S1x32.size a
  hwx6_3 : ∀ i : grid6.Coords, EltTy.bits .f32 = 32 ∨ (Rect.block (s := S1x32) S1x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S32x4.size a ≤ S32x4.size a
  hwx6_4 : ∀ i : grid6.Coords, EltTy.bits .f32 = 32 ∨ (Rect.block (s := S32x4) S32x4.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x4.size a ≤ S1x4.size a
  hwx6_5 : ∀ i : grid6.Coords, EltTy.bits .f32 = 32 ∨ (Rect.block (s := S1x4) S1x4.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S64x4.size a ≤ S64x4.size a
  hwx6_6 : ∀ i : grid6.Coords, EltTy.bits .f32 = 32 ∨ (Rect.block (s := S64x4) S64x4.size (cc6_transform_6 i) (hinb6_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x4_S4x64_S10000x64_1_0_0_1_n_n : DotDims S10000x4 S4x64 S10000x64 where
  lhsContracting := [1]
  rhsContracting := [0]
  lhsNonContracting := [0]
  rhsNonContracting := [1]
  lhsBatch := []
  rhsBatch := []
  wf := dot_S10000x4_S4x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S10000x64_S64x64_0_0_1_1_n_n : DotDims S10000x64 S10000x64 S64x64 where
  lhsContracting := [0]
  rhsContracting := [0]
  lhsNonContracting := [1]
  rhsNonContracting := [1]
  lhsBatch := []
  rhsBatch := []
  wf := dot_S10000x64_S10000x64_S64x64_0_0_1_1_n_n_wf
def dot_S10000x64_S10000x1_S64x1_0_0_1_1_n_n : DotDims S10000x64 S10000x1 S64x1 where
  lhsContracting := [0]
  rhsContracting := [0]
  lhsNonContracting := [1]
  rhsNonContracting := [1]
  lhsBatch := []
  rhsBatch := []
  wf := dot_S10000x64_S10000x1_S64x1_0_0_1_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x4_S64x4_1_0_0_1_n_n : DotDims S64x32 S32x4 S64x4 where
  lhsContracting := [1]
  rhsContracting := [0]
  lhsNonContracting := [0]
  rhsNonContracting := [1]
  lhsBatch := []
  rhsBatch := []
  wf := dot_S64x32_S32x4_S64x4_1_0_0_1_n_n_wf

abbrev win0_0 : Pipeline.Window sig grid0 :=
  Pipeline.Window.ofSpec (Memref.whole main_arg0) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v79) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v80) S10000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg9) S64x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v81) S1x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg11) S32x4.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v82) S1x4.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v83) S64x4.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev idle6 : Fin 7 → grid6.Coords → Bool := fun | 0 => fun _ => false | 1 => fun _ => false | 2 => fun _ => false | 3 => fun _ => false | 4 => fun _ => false | 5 => fun _ => false | 6 => fun i => !(k6_cond2 i == 1#1) | ⟨_ + 7, h⟩ => absurd h (Nat.not_lt.2 (Nat.le_add_left _ _))

class Facts : Prop extends Facts₀ where

variable [Facts]
-- ==== ReferenceIdeal.lean ====
abbrev S50000x4 : Shape := ⟨2, ![50000, 4]⟩
abbrev S2x800000 : Shape := ⟨2, ![2, 800000]⟩
abbrev S50000 : Shape := ⟨1, ![50000]⟩
abbrev S4x64 : Shape := ⟨2, ![4, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x4 : Shape := ⟨2, ![32, 4]⟩
abbrev S4 : Shape := ⟨1, ![4]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩
abbrev S64x1 : Shape := ⟨2, ![64, 1]⟩
abbrev S1x32 : Shape := ⟨2, ![1, 32]⟩
abbrev S64x4 : Shape := ⟨2, ![64, 4]⟩
abbrev S1x4 : Shape := ⟨2, ![1, 4]⟩

abbrev nBuf : Space → Nat
  | .hbm => 146
  | .vmem => 0
  | .smem => 0
  | _ => 0

abbrev hbmTy0_0 (i : Nat) : BufTy := match i % 128 with
  | 0 => ⟨S50000x4, .f32⟩
  | 1 => ⟨S2x800000, .i32⟩
  | 2 => ⟨S50000, .i32⟩
  | 3 => ⟨S4x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x32, .f32⟩
  | 10 => ⟨S32, .f32⟩
  | 11 => ⟨S32x4, .f32⟩
  | 12 => ⟨S4, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S50000x64, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x64, .f32⟩
  | 66 => ⟨S850000x1, .f32⟩
  | 67 => ⟨S850000x64, .f32⟩
  | 68 => ⟨S850000x64, .f32⟩
  | 69 => ⟨S_, .f32⟩
  | 70 => ⟨S50000x64, .f32⟩
  | 71 => ⟨S850000x1, .i32⟩
  | 72 => ⟨S50000x64, .f32⟩
  | 73 => ⟨S1x64, .f32⟩
  | 74 => ⟨S50000x64, .f32⟩
  | 75 => ⟨S50000x64, .f32⟩
  | 76 => ⟨S_, .f32⟩
  | 77 => ⟨S50000x64, .f32⟩
  | 78 => ⟨S50000x64, .f32⟩
  | 79 => ⟨S50000x64, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000x64, .f32⟩
  | 89 => ⟨S850000x1, .f32⟩
  | 90 => ⟨S850000x64, .f32⟩
  | 91 => ⟨S850000x64, .f32⟩
  | 92 => ⟨S_, .f32⟩
  | 93 => ⟨S50000x64, .f32⟩
  | 94 => ⟨S850000x1, .i32⟩
  | 95 => ⟨S50000x64, .f32⟩
  | 96 => ⟨S1x64, .f32⟩
  | 97 => ⟨S50000x64, .f32⟩
  | 98 => ⟨S50000x64, .f32⟩
  | 99 => ⟨S_, .f32⟩
  | 100 => ⟨S50000x64, .f32⟩
  | 101 => ⟨S50000x64, .f32⟩
  | 102 => ⟨S50000x64, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000x64, .f32⟩
  | 112 => ⟨S850000x1, .f32⟩
  | 113 => ⟨S850000x64, .f32⟩
  | 114 => ⟨S850000x64, .f32⟩
  | 115 => ⟨S_, .f32⟩
  | 116 => ⟨S50000x64, .f32⟩
  | 117 => ⟨S850000x1, .i32⟩
  | 118 => ⟨S50000x64, .f32⟩
  | 119 => ⟨S1x64, .f32⟩
  | 120 => ⟨S50000x64, .f32⟩
  | 121 => ⟨S50000x64, .f32⟩
  | 122 => ⟨S_, .f32⟩
  | 123 => ⟨S64x64, .f32⟩
  | 124 => ⟨S50000x1, .i32⟩
  | 125 => ⟨S64x64, .f32⟩
  | 126 => ⟨S_, .f32⟩
  | 127 => ⟨S50000, .f32⟩
  | _ => ⟨S50000x4, .f32⟩

abbrev hbmTy0_1 (i : Nat) : BufTy := match i % 128 with
  | 0 => ⟨S_, .f32⟩
  | 1 => ⟨S64, .f32⟩
  | 2 => ⟨S50000x1, .i32⟩
  | 3 => ⟨S64, .f32⟩
  | 4 => ⟨S_, .f32⟩
  | 5 => ⟨S64, .f32⟩
  | 6 => ⟨S64, .f32⟩
  | 7 => ⟨S64x1, .f32⟩
  | 8 => ⟨S64x64, .f32⟩
  | 9 => ⟨S64x64, .f32⟩
  | 10 => ⟨S64x32, .f32⟩
  | 11 => ⟨S1x32, .f32⟩
  | 12 => ⟨S64x32, .f32⟩
  | 13 => ⟨S64x32, .f32⟩
  | 14 => ⟨S64x4, .f32⟩
  | 15 => ⟨S1x4, .f32⟩
  | 16 => ⟨S64x4, .f32⟩
  | 17 => ⟨S64x4, .f32⟩
  | _ => ⟨S50000x4, .f32⟩

abbrev hbmTy (i : Nat) : BufTy := match i / 128 with
  | 0 => hbmTy0_0 i
  | 1 => hbmTy0_1 i
  | _ => ⟨S50000x4, .f32⟩

abbrev bufTy : (tb : Table) → Fin (tcTables nBuf tb) → BufTy
  | .hbm, ⟨i, _⟩ => hbmTy i
  | _, _ => ⟨S50000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_cst : Ref sig .tc := ⟨.hbm, 76, rfl⟩
abbrev main_call1_v0 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_c_11 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call2_cst : Ref sig .tc := ⟨.hbm, 99, rfl⟩
abbrev main_call2_v0 : Ref sig .tc := ⟨.hbm, 100, rfl⟩
abbrev main_v67 : Ref sig .tc := ⟨.hbm, 101, rfl⟩
abbrev main_v68 : Ref sig .tc := ⟨.hbm, 102, rfl⟩
abbrev main_c_13 : Ref sig .tc := ⟨.hbm, 103, rfl⟩
abbrev main_v69 : Ref sig .tc := ⟨.hbm, 104, rfl⟩
abbrev main_v70 : Ref sig .tc := ⟨.hbm, 105, rfl⟩
abbrev main_c_14 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_15 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_16 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_17 : Ref sig .tc := ⟨.hbm, 126, rfl⟩
abbrev main_v88 : Ref sig .tc := ⟨.hbm, 127, rfl⟩
abbrev main_cst_18 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_19 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x4_S4x64_S50000x64_1_0_0_1_n_n_wf : DotDims.WF S50000x4 S4x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x32_S64x32_1_0_0_1_n_n_wf : DotDims.WF S64x64 S64x32 S64x32 [1] [0] [0] [1] [] []
  dot_S64x32_S32x4_S64x4_1_0_0_1_n_n_wf : DotDims.WF S64x32 S32x4 S64x4 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x4_S4x64_S50000x64_1_0_0_1_n_n : DotDims S50000x4 S4x64 S50000x64 where
  lhsContracting := [1]
  rhsContracting := [0]
  lhsNonContracting := [0]
  rhsNonContracting := [1]
  lhsBatch := []
  rhsBatch := []
  wf := dot_S50000x4_S4x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x4_S64x4_1_0_0_1_n_n : DotDims S64x32 S32x4 S64x4 where
  lhsContracting := [1]
  rhsContracting := [0]
  lhsNonContracting := [0]
  rhsNonContracting := [1]
  lhsBatch := []
  rhsBatch := []
  wf := dot_S64x32_S32x4_S64x4_1_0_0_1_n_n_wf

class Facts : Prop extends Facts₀ where

variable [Facts]
-- ==== Proof.KDefs.lean ====
import proofs.«404386_j43679817400704_2_alg».proof.Proof.Gen.Kernel.Launch
import proofs.«404386_j43679817400704_2_alg».proof.Proof.Gen.Kernel.Skeleton
import proofs.«404386_j43679817400704_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk (cfg : Cfg sig Λ₀) (c : Dev nD) (w : Fin cfg.W) (t : Fin cfg.N) : ((cfg.win w).xblock (cfg.grid.coords t)).Idx → Elt F (cfg.win w).elt :=
  ((cfg.win w).blk t).view.read (Elt F) (V c (Pipeline.arrRef cfg.spec w))

abbrev r10000x4 : Rect S10000x4 := Rect.unit (s := S10000x4) ![0, 0] S10000x4.size inb_S10000x4_S10000x4_0_0
abbrev r4x64 : Rect S4x64 := Rect.unit (s := S4x64) ![0, 0] S4x64.size inb_S4x64_S4x64_0_0
abbrev r10000x64 : Rect S10000x64 := Rect.unit (s := S10000x64) ![0, 0] S10000x64.size inb_S10000x64_S10000x64_0_0
abbrev r1x64 : Rect S1x64 := Rect.unit (s := S1x64) ![0, 0] S1x64.size inb_S1x64_S1x64_0_0
abbrev r64x64 : Rect S64x64 := Rect.unit (s := S64x64) ![0, 0] S64x64.size inb_S64x64_S64x64_0_0

def out0_2 (x0 : Vec F S10000x4 .f32) (x1 : Vec F S4x64 .f32) : Vec F S10000x64 .f32 :=
  View.canon [⟨r10000x64, k0_pay1 (View.ld x0 r10000x4) (View.ld x1 r4x64)⟩]

def dat0 (c : Dev nD) : Dat τ (Elt F) Unit ℕ (UR sig nD τ) ℕ cfg0 c where
  A w := V c (Pipeline.arrRef spec0 w)
  after w t := match w with
    | ⟨0, _⟩ => iblk V cfg0 c 0 t
    | ⟨1, _⟩ => iblk V cfg0 c 1 t
    | ⟨2, _⟩ => out0_2 (iblk V cfg0 c 0 t) (iblk V cfg0 c 1 t)
  Φ _ := Pipeline.ΦA spec0 c
  q _ := fullShare
  owed _ := 0

theorem A_eq0 (c : Dev nD) (w : Fin cfg0.W) : (dat0 V c).A w = V c (Pipeline.arrRef spec0 w) := rfl
theorem after0_0 (c : Dev nD) (t : Fin cfg0.N) : (dat0 V c).after 0 t = iblk V cfg0 c 0 t := by dsimp only [dat0]
theorem after0_1 (c : Dev nD) (t : Fin cfg0.N) : (dat0 V c).after 1 t = iblk V cfg0 c 1 t := by dsimp only [dat0]
theorem after0_2 (c : Dev nD) (t : Fin cfg0.N) : (dat0 V c).after 2 t = out0_2 (iblk V cfg0 c 0 t) (iblk V cfg0 c 1 t) := by dsimp only [dat0]

def out1_2 (x0 : Vec F S10000x64 .f32) (x1 : Vec F S1x64 .f32) : Vec F S10000x64 .f32 :=
  View.canon [⟨r10000x64, k1_pay1 (View.ld x0 r10000x64) (View.ld x1 r1x64)⟩]

def dat1 (c : Dev nD) : Dat τ (Elt F) Unit ℕ (UR sig nD τ) ℕ cfg1 c where
  A w := V c (Pipeline.arrRef spec1 w)
  after w t := match w with
    | ⟨0, _⟩ => iblk V cfg1 c 0 t
    | ⟨1, _⟩ => iblk V cfg1 c 1 t
    | ⟨2, _⟩ => out1_2 (iblk V cfg1 c 0 t) (iblk V cfg1 c 1 t)
  Φ _ := Pipeline.ΦA spec1 c
  q _ := fullShare
  owed _ := 0

theorem A_eq1 (c : Dev nD) (w : Fin cfg1.W) : (dat1 V c).A w = V c (Pipeline.arrRef spec1 w) := rfl
theorem after1_0 (c : Dev nD) (t : Fin cfg1.N) : (dat1 V c).after 0 t = iblk V cfg1 c 0 t := by dsimp only [dat1]
theorem after1_1 (c : Dev nD) (t : Fin cfg1.N) : (dat1 V c).after 1 t = iblk V cfg1 c 1 t := by dsimp only [dat1]
theorem after1_2 (c : Dev nD) (t : Fin cfg1.N) : (dat1 V c).after 2 t = out1_2 (iblk V cfg1 c 0 t) (iblk V cfg1 c 1 t) := by dsimp only [dat1]

def out2_2 (x0 : Vec F S10000x64 .f32) (x1 : Vec F S64x64 .f32) : Vec F S10000x64 .f32 :=
  View.canon [⟨r10000x64, k2_pay1 (View.ld x0 r10000x64) (View.ld x1 r64x64)⟩]

def dat2 (c : Dev nD) : Dat τ (Elt F) Unit ℕ (UR sig nD τ) ℕ cfg2 c where
  A w := V c (Pipeline.arrRef spec2 w)
  after w t := match w with
    | ⟨0, _⟩ => iblk V cfg2 c 0 t
    | ⟨1, _⟩ => iblk V cfg2 c 1 t
    | ⟨2, _⟩ => out2_2 (iblk V cfg2 c 0 t) (iblk V cfg2 c 1 t)
  Φ _ := Pipeline.ΦA spec2 c
  q _ := fullShare
  owed _ := 0

theorem A_eq2 (c : Dev nD) (w : Fin cfg2.W) : (dat2 V c).A w = V c (Pipeline.arrRef spec2 w) := rfl
theorem after2_0 (c : Dev nD) (t : Fin cfg2.N) : (dat2 V c).after 0 t = iblk V cfg2 c 0 t := by dsimp only [dat2]
theorem after2_1 (c : Dev nD) (t : Fin cfg2.N) : (dat2 V c).after 1 t = iblk V cfg2 c 1 t := by dsimp only [dat2]
theorem after2_2 (c : Dev nD) (t : Fin cfg2.N) : (dat2 V c).after 2 t = out2_2 (iblk V cfg2 c 0 t) (iblk V cfg2 c 1 t) := by dsimp only [dat2]

def out3_2 (x0 : Vec F S10000x64 .f32) (x1 : Vec F S1x64 .f32) : Vec F S10000x64 .f32 :=
  View.canon [⟨r10000x64, k3_pay1 (View.ld x0 r10000x64) (View.ld x1 r1x64)⟩]

def dat3 (c : Dev nD) : Dat τ (Elt F) Unit ℕ (UR sig nD τ) ℕ cfg3 c where
  A w := V c (Pipeline.arrRef spec3 w)
  after w t := match w with
    | ⟨0, _⟩ => iblk V cfg3 c 0 t
    | ⟨1, _⟩ => iblk V cfg3 c 1 t
    | ⟨2, _⟩ => out3_2 (iblk V cfg3 c 0 t) (iblk V cfg3 c 1 t)
  Φ _ := Pipeline.ΦA spec3 c
  q _ := fullShare
  owed _ := 0

theorem A_eq3 (c : Dev nD) (w : Fin cfg3.W) : (dat3 V c).A w = V c (Pipeline.arrRef spec3 w) := rfl
theorem after3_0 (c : Dev nD) (t : Fin cfg3.N) : (dat3 V c).after 0 t = iblk V cfg3 c 0 t := by dsimp only [dat3]
theorem after3_1 (c : Dev nD) (t : Fin cfg3.N) : (dat3 V c).after 1 t = iblk V cfg3 c 1 t := by dsimp only [dat3]
theorem after3_2 (c : Dev nD) (t : Fin cfg3.N) : (dat3 V c).after 2 t = out3_2 (iblk V cfg3 c 0 t) (iblk V cfg3 c 1 t) := by dsimp only [dat3]

def out4_2 (x0 : Vec F S10000x64 .f32) (x1 : Vec F S64x64 .f32) : Vec F S10000x64 .f32 :=
  View.canon [⟨r10000x64, k4_pay1 (View.ld x0 r10000x64) (View.ld x1 r64x64)⟩]

def dat4 (c : Dev nD) : Dat τ (Elt F) Unit ℕ (UR sig nD τ) ℕ cfg4 c where
  A w := V c (Pipeline.arrRef spec4 w)
  after w t := match w with
    | ⟨0, _⟩ => iblk V cfg4 c 0 t
    | ⟨1, _⟩ => iblk V cfg4 c 1 t
    | ⟨2, _⟩ => out4_2 (iblk V cfg4 c 0 t) (iblk V cfg4 c 1 t)
  Φ _ := Pipeline.ΦA spec4 c
  q _ := fullShare
  owed _ := 0

theorem A_eq4 (c : Dev nD) (w : Fin cfg4.W) : (dat4 V c).A w = V c (Pipeline.arrRef spec4 w) := rfl
theorem after4_0 (c : Dev nD) (t : Fin cfg4.N) : (dat4 V c).after 0 t = iblk V cfg4 c 0 t := by dsimp only [dat4]
theorem after4_1 (c : Dev nD) (t : Fin cfg4.N) : (dat4 V c).after 1 t = iblk V cfg4 c 1 t := by dsimp only [dat4]
theorem after4_2 (c : Dev nD) (t : Fin cfg4.N) : (dat4 V c).after 2 t = out4_2 (iblk V cfg4 c 0 t) (iblk V cfg4 c 1 t) := by dsimp only [dat4]

def out5_2 (x0 : Vec F S10000x64 .f32) (x1 : Vec F S1x64 .f32) : Vec F S10000x64 .f32 :=
  View.canon [⟨r10000x64, k5_pay1 (View.ld x0 r10000x64) (View.ld x1 r1x64)⟩]

def dat5 (c : Dev nD) : Dat τ (Elt F) Unit ℕ (UR sig nD τ) ℕ cfg5 c where
  A w := V c (Pipeline.arrRef spec5 w)
  after w t := match w with
    | ⟨0, _⟩ => iblk V cfg5 c 0 t
    | ⟨1, _⟩ => iblk V cfg5 c 1 t
    | ⟨2, _⟩ => out5_2 (iblk V cfg5 c 0 t) (iblk V cfg5 c 1 t)
  Φ _ := Pipeline.ΦA spec5 c
  q _ := fullShare
  owed _ := 0

theorem A_eq5 (c : Dev nD) (w : Fin cfg5.W) : (dat5 V c).A w = V c (Pipeline.arrRef spec5 w) := rfl
theorem after5_0 (c : Dev nD) (t : Fin cfg5.N) : (dat5 V c).after 0 t = iblk V cfg5 c 0 t := by dsimp only [dat5]
theorem after5_1 (c : Dev nD) (t : Fin cfg5.N) : (dat5 V c).after 1 t = iblk V cfg5 c 1 t := by dsimp only [dat5]
theorem after5_2 (c : Dev nD) (t : Fin cfg5.N) : (dat5 V c).after 2 t = out5_2 (iblk V cfg5 c 0 t) (iblk V cfg5 c 1 t) := by dsimp only [dat5]

end

end Cert.Kernel.Frm

end
-- ==== Proof.KBodyA.lean ====
import proofs.«404386_j43679817400704_2_alg».proof.Proof.KDefs

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- A program that loads two inputs, stores `pay` of them over an output that the one store tiles, and returns: the inputs stay, the output is `pay` of them, `P` and `Q` pass through. -/
theorem wp_body3 (c : Dev nD) {s0 s1 s2 : Shape} {a0 : Memref sig .tc .vmem s0 .f32} {r0 : Rect s0} {h0 : a0.view.LoadsAt r0.toLoadRect}
    {a1 : Memref sig .tc .vmem s1 .f32} {r1 : Rect s1} {h1 : a1.view.LoadsAt r1.toLoadRect}
    {a2 : Memref sig .tc .vmem s2 .f32} {r2 : Rect s2} {h2 : a2.view.LoadsAt r2.toLoadRect} {hs : (a2.access r2).Stores Finset.univ}
    {pay : (r0.toLoadRect.shape.Idx → Elt F .f32) → (r1.toLoadRect.shape.Idx → Elt F .f32) → r2.shape.Idx → Elt F .f32}
    {P Q : sProp 𝕄} {D0 D1 D2 : Type} {b0 : D0 → Vec F s0 .f32} {b1 : D1 → Vec F s1 .f32} {b2 : D2 → Vec F s2 .f32}
    {x0 : Vec F s0 .f32} {x1 : Vec F s1 .f32} (hb0 : ∀ d, b0 d = x0) (hb1 : ∀ d, b1 d = x1)
    (hcov : ∀ p, View.Piece.tiled ([⟨r2, p⟩] : List (View.Piece (Elt F) s2 .f32)) s2.size = true) :
    iprop(P ∗ Q ∗ (∃ d, owns (c : Thread nD τ) a0 fullShare (b0 d)) ∗ (∃ d, owns (c : Thread nD τ) a1 fullShare (b1 d))
        ∗ (∃ d, owns (c : Thread nD τ) a2 fullShare (b2 d)))
      ⊢ wp frame (wpE (defs₀ (F := F)) Variants.none c none) Set.univ
          (do let v0 ← Prog.lift (.load a0 r0.toLoadRect h0)
              let v1 ← Prog.lift (.load a1 r1.toLoadRect h1)
              let _ ← Prog.lift (.load a2 r2.toLoadRect h2)
              Prog.lift (.store a2 r2 (pay v0 v1) Finset.univ hs (.inl rfl))
              pure ⟨⟩ : Prog (TpuEff nD τ sig (Elt F) Λ₀ .tc) PUnit) fun _ =>
        iprop(P ∗ Q ∗ owns (c : Thread nD τ) a0 fullShare x0 ∗ owns (c : Thread nD τ) a1 fullShare x1
          ∗ owns (c : Thread nD τ) a2 fullShare (View.canon [⟨r2, pay (View.ld x0 r0) (View.ld x1 r1)⟩])) := by
  simp only [hb0, hb1]
  unfold owns
  iintro ⟨HP, HQ, ⟨%_, %f0, %hf0, H0⟩, ⟨%_, %f1, %hf1, H1⟩, ⟨%_, %f2, -, H2⟩⟩
  subst hf0 hf1
  sl_exec
  sl_step
  iframe
  isplitl [H0]; · iexists f0; iframe; ipureintro; rfl
  isplitl [H1]; · iexists f1; iframe; ipureintro; rfl
  iexists _; iframe; ipureintro
  exact View.read_writes_eq_canon _ _ _ (View.cover_of_tiled _ _ (hcov _))

/-- Calls 0 to 5: each body is `wp_body3` at the call's shapes and payload. -/
theorem body_obligation0 (c : Dev nD) : BodyObligation (dat0 (F := F) V c) (defs₀ (F := F)) Variants.none () Set.univ := fun t => by
  rw [bigSep_W0, bigSep_W0, after0_0, after0_1, after0_2]
  sl_whnfR [defs₀, Defs.onTc]
  rw [cc0__proj_kernel_eq_skeleton]
  refine wp_body3 c ?_ ?_ (fun _ => rfl) <;> apply Dat.before_in_eq_fetched <;> intros <;> rfl

theorem body_obligation1 (c : Dev nD) : BodyObligation (dat1 (F := F) V c) (defs₀ (F := F)) Variants.none () Set.univ := fun t => by
  rw [bigSep_W1, bigSep_W1, after1_0, after1_1, after1_2]
  sl_whnfR [defs₀, Defs.onTc]
  rw [cc1__bias_act_kernel_eq_skeleton]
  refine wp_body3 c ?_ ?_ (fun _ => rfl) <;> apply Dat.before_in_eq_fetched <;> intros <;> rfl

theorem body_obligation2 (c : Dev nD) : BodyObligation (dat2 (F := F) V c) (defs₀ (F := F)) Variants.none () Set.univ := fun t => by
  rw [bigSep_W2, bigSep_W2, after2_0, after2_1, after2_2]
  sl_whnfR [defs₀, Defs.onTc]
  rw [cc2__proj_kernel_eq_skeleton]
  refine wp_body3 c ?_ ?_ (fun _ => rfl) <;> apply Dat.before_in_eq_fetched <;> intros <;> rfl

theorem body_obligation3 (c : Dev nD) : BodyObligation (dat3 (F := F) V c) (defs₀ (F := F)) Variants.none () Set.univ := fun t => by
  rw [bigSep_W3, bigSep_W3, after3_0, after3_1, after3_2]
  sl_whnfR [defs₀, Defs.onTc]
  rw [cc3__bias_act_kernel_eq_skeleton]
  refine wp_body3 c ?_ ?_ (fun _ => rfl) <;> apply Dat.before_in_eq_fetched <;> intros <;> rfl

theorem body_obligation4 (c : Dev nD) : BodyObligation (dat4 (F := F) V c) (defs₀ (F := F)) Variants.none () Set.univ := fun t => by
  rw [bigSep_W4, bigSep_W4, after4_0, after4_1, after4_2]
  sl_whnfR [defs₀, Defs.onTc]
  rw [cc4__proj_kernel_eq_skeleton]
  refine wp_body3 c ?_ ?_ (fun _ => rfl) <;> apply Dat.before_in_eq_fetched <;> intros <;> rfl

theorem body_obligation5 (c : Dev nD) : BodyObligation (dat5 (F := F) V c) (defs₀ (F := F)) Variants.none () Set.univ := fun t => by
  rw [bigSep_W5, bigSep_W5, after5_0, after5_1, after5_2]
  sl_whnfR [defs₀, Defs.onTc]
  rw [cc5__bias_act_kernel_eq_skeleton]
  refine wp_body3 c ?_ ?_ (fun _ => rfl) <;> apply Dat.before_in_eq_fetched <;> intros <;> rfl

end

end Cert.Kernel.Frm

end
-- ==== Proof.KDefs6.lean ====
import proofs.«404386_j43679817400704_2_alg».proof.Proof.Gen.Kernel.Launch
import proofs.«404386_j43679817400704_2_alg».proof.Proof.Gen.Kernel.Skeleton
import proofs.«404386_j43679817400704_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond6_0 (i : grid6.Coords) : Prop := (Scalar.cmpi .ne (Scalar.extui (Scalar.cmpi .eq (BitVec.ofNat 32 (i 0).val) 0#32)) 0#32) = 1#1
abbrev cond6_1 (i : grid6.Coords) : Prop := k6_cond2 i = 1#1

theorem hcond6_0 : ∀ t : Fin cfg6.N, cond6_0 (grid6.coords t) ↔ t.val % 5 = 0 :=
  (by decide +kernel : ∀ t : Fin grid6.N, cond6_0 (grid6.coords t) ↔ t.val % 5 = 0)
theorem hcond6_1 : ∀ t : Fin cfg6.N, cond6_1 (grid6.coords t) ↔ t.val % 5 = 4 :=
  (by decide +kernel : ∀ t : Fin grid6.N, cond6_1 (grid6.coords t) ↔ t.val % 5 = 4)

theorem hz6 : (![0, 0] : Fin 2 → Nat) = fun _ => 0 := funext fun a => by fin_cases a <;> rfl

-- The rectangle at offset zero with the shape's full extent contains every index.
theorem cover6_one {S : Shape} {e : EltTy} {off : Fin S.rank → Nat} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

-- The step's update of the sums and counts, restarted from zero under the first condition; under the second, the head's value of the updated sums and counts.
set_option maxHeartbeats 1500000 in
theorem kernel6 (c : Dev nD) (E : Set ℕ) (i : grid6.Coords) (arg1 : Memref sig .tc .vmem S10000x64 .f32) (harg1 : arg1.IsWhole) (arg2 : Memref sig .tc .vmem S10000x1 .i32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x4 .f32) (harg5 : arg5.IsWhole) (arg6 : Memref sig .tc .vmem S1x4 .f32) (harg6 : arg6.IsWhole) (arg7 : Memref sig .tc .vmem S64x4 .f32) (harg7 : arg7.IsWhole) (arg8 : Memref sig .tc .vmem S64x64 .f32) (harg8 : arg8.IsWhole) (arg9 : Memref sig .tc .vmem S64x1 .f32) (harg9 : arg9.IsWhole)
    (hx : cond6_0 i → ¬cond6_1 i)
    (x0 : Vec F S10000x64 .f32) (x1 : Vec F S10000x1 .i32) (x2 : Vec F S64x32 .f32) (x3 : Vec F S1x32 .f32)
    (x4 : Vec F S32x4 .f32) (x5 : Vec F S1x4 .f32) (d6 : Vec F S64x4 .f32) (ds : Vec F S64x64 .f32) (dc : Vec F S64x1 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare d6
        ∗ owns (c : Thread nD τ) arg8 fullShare ds ∗ owns (c : Thread nD τ) arg9 fullShare dc
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (if cond6_1 i then k6_pay6 (k6_pay4 x0 x1 (if cond6_0 i then k6_pay1 (F := F) else ds)) (k6_pay5 x1 (if cond6_0 i then k6_pay2 (F := F) else dc)) x2 x3 x4 x5 else d6)
            ∗ owns (c : Thread nD τ) arg8 fullShare (k6_pay4 x0 x1 (if cond6_0 i then k6_pay1 (F := F) else ds))
            ∗ owns (c : Thread nD τ) arg9 fullShare (k6_pay5 x1 (if cond6_0 i then k6_pay2 (F := F) else dc))) -∗ K ⟨⟩))
      ⊢ wp frame (wpE (defs₀ (F := F)) Variants.none c none) E (cc6__pool_head_kernel i arg1 harg1 arg2 harg2 arg3 harg3 arg4 harg4 arg5 harg5 arg6 harg6 arg7 harg7 arg8 harg8 arg9 harg9) K := by
  simp only [cc6__pool_head_kernel_eq_skeleton]; unfold cc6__pool_head_kernel_skel owns
  by_cases hc0 : cond6_0 i <;> by_cases hc1 : cond6_1 i
  · exact absurd hc1 (hx hc0)
  all_goals
    first | rw [if_pos hc0, if_pos hc0] | rw [if_neg hc0, if_neg hc0]
    first | rw [if_pos hc1] | rw [if_neg hc1]
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, ⟨%fc, %hfc, HC⟩, Hk⟩
    obtain rfl := harg1.eq_unread hf0; obtain rfl := harg2.eq_unread hf1
    obtain rfl := harg3.eq_unread hf2; obtain rfl := harg4.eq_unread hf3
    obtain rfl := harg5.eq_unread hf4; obtain rfl := harg6.eq_unread hf5
    obtain rfl := harg8.eq_unread hfs; obtain rfl := harg9.eq_unread hfc
    sl_exec (disch := first | exact hc0 | exact hc1)
    sl_step
    iapply Hk
    isplitl [H0]; rotate_left
    isplitl [H1]; rotate_left
    isplitl [H2]; rotate_left
    isplitl [H3]; rotate_left
    isplitl [H4]; rotate_left
    isplitl [H5]; rotate_left
    isplitl [H6]; rotate_left
    isplitl [HS]; rotate_left
    all_goals
      iexists _; iframe; ipureintro
      first
      | assumption
      | sl_unfold_words
        rw [View.read_writes_eq_canon _ _ _ (cover6_one hz6 _ _ _)]
        first | rw [View.canon_unit_zero hz6] | rw [View.canon_cons_unit_zero hz6]
        simp only [View.readAt_eq_ld, harg1.read_unread, harg2.read_unread, harg3.read_unread, harg4.read_unread, harg5.read_unread, harg6.read_unread,
          harg8.read_unread, harg9.read_unread, View.ld_unit_zero (S := S10000x64) hz6, View.ld_unit_zero (S := S10000x1) hz6, View.ld_unit_zero (S := S64x32) hz6, View.ld_unit_zero (S := S1x32) hz6, View.ld_unit_zero (S := S32x4) hz6, View.ld_unit_zero (S := S1x4) hz6, View.ld_unit_zero (S := S64x64) hz6, View.ld_unit_zero (S := S64x1) hz6, View.readCov_unit_zero (S := S64x64) _ hz6, View.readCov_unit_zero (S := S64x1) _ hz6]

section
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def pt6 (n : ℕ) : Fin cfg6.N := ⟨n % 5, by rw [show cfg6.N = 5 from N_6]; exact Nat.mod_lt _ (by decide)⟩

def accS (c : Dev nD) : ℕ → Vec F S64x64 .f32
  | 0 => k6_pay4 (iblk6 V c 0 (pt6 0)) (iblk6 V c 1 (pt6 0)) (k6_pay1 (F := F))
  | n + 1 => k6_pay4 (iblk6 V c 0 (pt6 (n + 1))) (iblk6 V c 1 (pt6 (n + 1))) (accS c n)

def accC (c : Dev nD) : ℕ → Vec F S64x1 .f32
  | 0 => k6_pay5 (iblk6 V c 1 (pt6 0)) (k6_pay2 (F := F))
  | n + 1 => k6_pay5 (iblk6 V c 1 (pt6 (n + 1))) (accC c n)

def out6_6 (c : Dev nD) : Vec F S64x4 .f32 :=
  k6_pay6 (accS V c 4) (accC V c 4) (iblk6 V c 2 (pt6 4)) (iblk6 V c 3 (pt6 4)) (iblk6 V c 4 (pt6 4)) (iblk6 V c 5 (pt6 4))

def Φ6 (c : Dev nD) : Fin (cfg6.N + 1) → sProp 𝕄
  | ⟨0, _⟩ => Pipeline.ΦA spec6 c
  | ⟨n + 1, _⟩ => iprop((((c : Thread nD τ).loc cc6_scratch0) ↦{fullShare} (accS V c n)) ∗ (((c : Thread nD τ).loc cc6_scratch1) ↦{fullShare} (accC V c n))
      ∗ Pipeline.scopedRestBut (Ix := Unit) (Name := ℕ) (U := UR sig nD τ) (Lvl := ℕ) (Val := Elt F) spec6 c [cc6_scratch0, cc6_scratch1] ∗ ∃ r, prngReg c r)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 V c
  Φ := Φ6 V c
  q _ := fullShare
  owed _ := 0

theorem A_eq6 (c : Dev nD) (w : Fin cfg6.W) : (dat6 V c).A w = V c (Pipeline.arrRef spec6 w) := rfl
theorem after6_0 (c : Dev nD) (t : Fin cfg6.N) : (dat6 V c).after 0 t = iblk6 V c 0 t := rfl
theorem after6_1 (c : Dev nD) (t : Fin cfg6.N) : (dat6 V c).after 1 t = iblk6 V c 1 t := rfl
theorem after6_2 (c : Dev nD) (t : Fin cfg6.N) : (dat6 V c).after 2 t = iblk6 V c 2 t := rfl
theorem after6_3 (c : Dev nD) (t : Fin cfg6.N) : (dat6 V c).after 3 t = iblk6 V c 3 t := rfl
theorem after6_4 (c : Dev nD) (t : Fin cfg6.N) : (dat6 V c).after 4 t = iblk6 V c 4 t := rfl
theorem after6_5 (c : Dev nD) (t : Fin cfg6.N) : (dat6 V c).after 5 t = iblk6 V c 5 t := rfl
theorem after6_6 (c : Dev nD) (t : Fin cfg6.N) : (dat6 V c).after 6 t = out6_6 V c := rfl
theorem Φ6_first (c : Dev nD) : (dat6 V c).Φ 0 = Pipeline.ΦA spec6 c := rfl

-- The step leaves every input block in place, so what an input window holds at a step is what the step leaves there.
theorem before6 (c : Dev nD) (t : Fin cfg6.N) (w : Fin cfg6.W) (hw : w ≠ 6) (d) : (dat6 V c).before w t d = (dat6 V c).after w t := by
  fin_cases w <;> first
    | exact absurd rfl hw
    | exact (dat6 V c).before_in_eq_fetched _ rfl (fun _ => rfl) (fun _ _ _ => rfl) (fun _ => rfl) t d

theorem leaves6 (c : Dev nD) (t : Fin cfg6.N) (w : Fin cfg6.W) (hw : w ≠ 6) :
    (dat6 V c).leavesExact w t = owns (c : Thread nD τ) ((cfg6.win w).stage (cfg6.slots t w)) fullShare ((dat6 V c).after w t) := by
  fin_cases w <;> first | exact absurd rfl hw | rfl

theorem out6_idle : ∀ t : Fin cfg6.N, (cond6_1 (grid6.coords t) → cfg6.idle 6 (grid6.coords t) = false)
    ∧ (¬cond6_1 (grid6.coords t) → cfg6.idle 6 (grid6.coords t) = true ∧ (cfg6.win 6).flush t = false) := by decide +kernel

abbrev sc6_0 : Memref sig .tc .vmem S64x64 .f32 := Memref.whole cc6_scratch0
abbrev sc6_1 : Memref sig .tc .vmem S64x1 .f32 := Memref.whole cc6_scratch1

theorem lt6 (t : Fin cfg6.N) : t.val < 5 := lt_of_lt_of_eq t.isLt (show cfg6.N = 5 from N_6)

theorem pt6_val (t : Fin cfg6.N) : pt6 t.val = t := Fin.ext (Nat.mod_eq_of_lt (lt6 t))

-- The running sums and counts unfold by one step, read at the step's own position.
theorem accS_first (c : Dev nD) (t : Fin cfg6.N) (h : t.val = 0) :
    accS V c t.val = k6_pay4 (iblk6 V c 0 t) (iblk6 V c 1 t) (k6_pay1 (F := F)) := by
  have e := pt6_val t; rw [h] at e ⊢; rw [← e]; rfl

theorem accS_later (c : Dev nD) (t : Fin cfg6.N) (h : t.val ≠ 0) :
    accS V c t.val = k6_pay4 (iblk6 V c 0 t) (iblk6 V c 1 t) (accS V c (t.val - 1)) := by
  obtain ⟨k, hk⟩ := Nat.exists_eq_succ_of_ne_zero h
  have e := pt6_val t; rw [hk] at e ⊢; rw [← e]; rfl

theorem accC_first (c : Dev nD) (t : Fin cfg6.N) (h : t.val = 0) :
    accC V c t.val = k6_pay5 (iblk6 V c 1 t) (k6_pay2 (F := F)) := by
  have e := pt6_val t; rw [h] at e ⊢; rw [← e]; rfl

theorem accC_later (c : Dev nD) (t : Fin cfg6.N) (h : t.val ≠ 0) :
    accC V c t.val = k6_pay5 (iblk6 V c 1 t) (accC V c (t.val - 1)) := by
  obtain ⟨k, hk⟩ := Nat.exists_eq_succ_of_ne_zero h
  have e := pt6_val t; rw [hk] at e ⊢; rw [← e]; rfl

theorem out6_last (c : Dev nD) (t : Fin cfg6.N) (h : t.val = 4) :
    out6_6 V c = k6_pay6 (accS V c t.val) (accC V c t.val) (iblk6 V c 2 t) (iblk6 V c 3 t) (iblk6 V c 4 t) (iblk6 V c 5 t) := by
  have e := pt6_val t; rw [h] at e ⊢; rw [← e]; rfl

theorem Φ6_succ (c : Dev nD) (t : Fin cfg6.N) :
    (dat6 V c).Φ t.succ = iprop(owns (c : Thread nD τ) sc6_0 fullShare (accS V c t.val) ∗ owns (c : Thread nD τ) sc6_1 fullShare (accC V c t.val)
      ∗ Pipeline.scopedRestBut (Ix := Unit) (Name := ℕ) (U := UR sig nD τ) (Lvl := ℕ) (Val := Elt F) spec6 c [cc6_scratch0, cc6_scratch1] ∗ ∃ r, prngReg c r) := by
  obtain ⟨n, hn⟩ := t; simp only [sc6_0, sc6_1, owns_whole]; rfl

-- Before any step the two accumulators hold some contents, and the step's update of them, from zero at the first step, gives the running sums and counts.
theorem Φ6_open (c : Dev nD) (t : Fin cfg6.N) :
    (dat6 V c).Φ t.castSucc ⊢ iprop(∃ ds dc, ⌜accS V c t.val = k6_pay4 (iblk6 V c 0 t) (iblk6 V c 1 t) (if cond6_0 (grid6.coords t) then k6_pay1 (F := F) else ds)
        ∧ accC V c t.val = k6_pay5 (iblk6 V c 1 t) (if cond6_0 (grid6.coords t) then k6_pay2 (F := F) else dc)⌝
      ∗ owns (c : Thread nD τ) sc6_0 fullShare ds ∗ owns (c : Thread nD τ) sc6_1 fullShare dc
      ∗ Pipeline.scopedRestBut (Ix := Unit) (Name := ℕ) (U := UR sig nD τ) (Lvl := ℕ) (Val := Elt F) spec6 c [cc6_scratch0, cc6_scratch1] ∗ ∃ r, prngReg c r) := by
  have hN := lt6 t
  simp only [sc6_0, sc6_1, owns_whole]
  by_cases h0 : t.val = 0
  · have hc0 : cond6_0 (grid6.coords t) := (hcond6_0 t).mpr (by omega)
    obtain ⟨n, hn⟩ := t; obtain rfl : n = 0 := h0
    show (Pipeline.ΦA spec6 c : sProp 𝕄) ⊢ _
    unfold Pipeline.ΦA; rw [scopedRest6_split]
    iintro ⟨⟨⟨⟨%ds, HS⟩, ⟨%dc, HC⟩⟩, HR⟩, Hg⟩
    iexists ds, dc; iframe; ipureintro
    rw [if_pos hc0, if_pos hc0]; exact ⟨accS_first V c _ rfl, accC_first V c _ rfl⟩
  · have hc0 : ¬cond6_0 (grid6.coords t) := fun h => h0 (by have := (hcond6_0 t).mp h; omega)
    obtain ⟨_ | n, hn⟩ := t
    · exact absurd rfl h0
    show iprop(_ ∗ _ ∗ _ ∗ _) ⊢ _
    iintro ⟨HS, HC, HR, Hg⟩
    iexists _, _; iframe; ipureintro
    rw [if_neg hc0, if_neg hc0]; exact ⟨accS_later V c _ h0, accC_later V c _ h0⟩

-- Only the last step produces the output block; every other step leaves the output window as it found it.
theorem leaves6_6 (c : Dev nD) (t : Fin cfg6.N) (d) :
    owns (c : Thread nD τ) (st6_6 t) fullShare (if cond6_1 (grid6.coords t) then k6_pay6 (accS V c t.val) (accC V c t.val) (iblk6 V c 2 t) (iblk6 V c 3 t) (iblk6 V c 4 t) (iblk6 V c 5 t) else (dat6 V c).before 6 t d)
      ⊢ (dat6 V c).leavesExact 6 t := by
  have hN := lt6 t
  by_cases hc1 : cond6_1 (grid6.coords t)
  · rw [if_pos hc1, ← out6_last V c t (by have := (hcond6_1 t).mp hc1; omega)]
    unfold Dat.leavesExact; rw [(out6_idle t).1 hc1, after6_6]
  · rw [if_neg hc1, Dat.leavesExact_idle (dat6 V c) 6 t ((out6_idle t).2 hc1).1 ((out6_idle t).2 hc1).2]
    iintro H; iexists _; iexact H

theorem Φ6_last (c : Dev nD) : (dat6 V c).Φ (Fin.last _) ⊢ (Pipeline.ΦA spec6 c : sProp 𝕄) := by
  show iprop(_ ∗ _ ∗ _ ∗ _) ⊢ _
  unfold Pipeline.ΦA; rw [scopedRest6_split]
  iintro ⟨HS, HC, HR, Hg⟩
  iframe
  isplitl [HS]
  · iexists _; iexact HS
  iexists _; iexact HC

theorem body_obligation6 (c : Dev nD) : BodyObligation (dat6 (F := F) V c) (defs₀ (F := F)) Variants.none () Set.univ := fun t => by
  have hN := lt6 t
  show iprop(_ ∗ _ ∗ bigSep Finset.univ fun w => iprop(∃ d, owns (c : Thread nD τ) _ fullShare ((dat6 V c).before w t d)))
    ⊢ wp _ _ _ (bodyAt6 t) fun _ => iprop(_ ∗ (dat6 V c).owesAt () t.castSucc ∗ bigSep Finset.univ fun w => (dat6 V c).leavesExact w t)
  rw [bigSep_W6, bigSep_W6, Φ6_succ]
  simp only [before6 V c t 0 (by decide), before6 V c t 1 (by decide), before6 V c t 2 (by decide), before6 V c t 3 (by decide), before6 V c t 4 (by decide), before6 V c t 5 (by decide),
    leaves6 V c t 0 (by decide), leaves6 V c t 1 (by decide), leaves6 V c t 2 (by decide), leaves6 V c t 3 (by decide), leaves6 V c t 4 (by decide), leaves6 V c t 5 (by decide),
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩, ⟨%d6, H6⟩⟩
  icases Φ6_open V c t $$ HΦ with ⟨%ds, %dc, %h, HS, HC, HR, Hg⟩
  iapply (kernel6 c Set.univ (grid6.coords t) _ _ _ _ _ _ _ _ _ _ _ _ _ _ _ _ _ _
    (fun a b => by have := (hcond6_0 t).mp a; have := (hcond6_1 t).mp b; omega)
    (iblk6 V c 0 t) (iblk6 V c 1 t) (iblk6 V c 2 t) (iblk6 V c 3 t) (iblk6 V c 4 t) (iblk6 V c 5 t) ((dat6 V c).before 6 t d6) ds dc _)
  rw [← h.1, ← h.2]
  iframe
  iintro ⟨H0, H1, H2, H3, H4, H5, H6, HS, HC⟩
  ihave H6 := leaves6_6 V c t d6 $$ H6
  iframe
end

end Cert.Kernel.Frm

end
-- ==== Proof.KRunFold.lean ====
import proofs.«404386_j43679817400704_2_alg».proof.Proof.Gen.Kernel.Launch
import proofs.«404386_j43679817400704_2_alg».proof.Proof.Gen.Kernel.Skeleton
import proofs.«404386_j43679817400704_2_alg».proof.Proof.Gen.Kernel.Points
import proofs.«404386_j43679817400704_2_alg».proof.Proof.Gen.Kernel.Regions
import proofs.«404386_j43679817400704_2_alg».proof.Proof.KBodyA
import proofs.«404386_j43679817400704_2_alg».proof.Proof.KDefs6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frm

open Idealize.ShloMosaic Idealize.ShloMosaic.TcCoe
open Idealize.ShloMosaic.Pipeline (Dat Cfg WinSpec arrRef withArrays withArrays_arr withArrays_of_ne)
open Cert.Kernel Cert.Kernel.Gen

variable {F : FTy → Type} [FloatOps F] (m : (ℓ : Loc nD τ sig) → Buf (Elt F) ℓ) (ρ : Dev nD → PrngReg) (c : Dev nD) (b : Ref sig .tc)

-- A buffer that is none of a call's arrays is left as the call found it.
theorem withArrays_rest {gr W : Nat} (win : Fin W → WinSpec sig gr) (V : Valuation τ sig (Elt F)) (A)
    (hb : b ∉ Finset.univ.image (arrRef win)) : withArrays win c V A b = V b :=
  withArrays_of_ne win c V A b fun w e => hb (Finset.mem_image.mpr ⟨w, Finset.mem_univ _, e⟩)

-- A call whose arrays other than array o are inputs changes no buffer but array o: an input array is only read.
theorem withArrays_keeps (cfg : Cfg sig Λ₀) (hinj : Function.Injective (arrRef cfg.spec)) (V : Valuation τ sig (Elt F))
    (d : Dat τ (Elt F) Unit ℕ (UR sig nD τ) ℕ cfg c) (hA : ∀ w, d.A w = V (arrRef cfg.spec w))
    (o : Fin cfg.W) (ho : ∀ w, w ≠ o → (cfg.win w).isOut = false) (hb : b ∉ [arrRef cfg.spec o]) :
    withArrays cfg.spec c V (fun w => d.arrAt w cfg.N) b = V b := by
  by_cases h : ∃ w, arrRef cfg.spec w = b
  · obtain ⟨w, rfl⟩ := h
    rw [withArrays_arr _ hinj, d.arrAt_in w (ho w fun e => hb (e ▸ List.mem_singleton_self _)), hA]
  · exact withArrays_of_ne _ c V _ b fun w e => h ⟨w, e⟩

-- What an item leaves alone outside L, and the items before it outside L', is as launched outside L ++ L'.
theorem kept_step {α : Type} {L L' : List α} {b : α} {β : Sort _} {x y z : β} (s : b ∉ L → x = y) (p : b ∉ L' → y = z)
    (h : b ∉ L ++ L') : x = z :=
  (s fun hb => h (List.mem_append_left _ hb)).trans (p fun hb => h (List.mem_append_right _ hb))

abbrev X0 : Dev nD → Valuation τ sig (Elt F) := fun c b => (s₀ m ρ).mem ((c : Dev nD), b)

abbrev X1 : Dev nD → Valuation τ sig (Elt F) := fun c => StableHlo.after hostOps0 (X0 m ρ c)
abbrev XV1 : (c : Dev nD) → (b : Ref sig .tc) → Buf (Elt F) ((c : Thread nD τ).loc b) := fun c b => X1 m ρ c b
abbrev XW1 := hostOps0_W
theorem X1_kept (h : b ∉ XW1) : X1 m ρ c b = X0 m ρ c b :=
  StableHlo.after_of_writes_sub hostOps0 _ hostOps0_writes h

abbrev X2 : Dev nD → Valuation τ sig (Elt F) := fun c => StableHlo.after hostOps0_1 (X1 m ρ c)
abbrev XV2 : (c : Dev nD) → (b : Ref sig .tc) → Buf (Elt F) ((c : Thread nD τ).loc b) := fun c b => X2 m ρ c b
theorem X2_of (r : Ref sig .tc) (h : r ∉ hostOps0_1_W) : X2 m ρ c r = X1 m ρ c r :=
  StableHlo.after_of_writes_sub hostOps0_1 _ hostOps0_1_writes h
abbrev XW2 := hostOps0_1_W ++ XW1
theorem X2_kept (h : b ∉ XW2) : X2 m ρ c b = X0 m ρ c b :=
  kept_step (X2_of m ρ c b) (X1_kept m ρ c b) h

abbrev X3 : Dev nD → Valuation τ sig (Elt F) := fun c => StableHlo.after hostOps0_2 (X2 m ρ c)
abbrev XV3 : (c : Dev nD) → (b : Ref sig .tc) → Buf (Elt F) ((c : Thread nD τ).loc b) := fun c b => X3 m ρ c b
theorem X3_of (r : Ref sig .tc) (h : r ∉ hostOps0_2_W) : X3 m ρ c r = X2 m ρ c r :=
  StableHlo.after_of_writes_sub hostOps0_2 _ hostOps0_2_writes h
abbrev XW3 := hostOps0_2_W ++ XW2
theorem X3_kept (h : b ∉ XW3) : X3 m ρ c b = X0 m ρ c b :=
  kept_step (X3_of m ρ c b) (X2_kept m ρ c b) h

def X4 : Valuation τ sig (Elt F) :=
  withArrays spec0 c (X3 m ρ c) fun w => (dat0 (XV3 m ρ) c).arrAt w cfg0.N
theorem X4_arr (w : Fin cfg0.W) : X4 m ρ c (arrRef spec0 w) = (dat0 (XV3 m ρ) c).arrAt w cfg0.N :=
  withArrays_arr spec0 launch0.win.arr_inj c _ _ w
theorem X4_of_ne (hb : ∀ w, arrRef spec0 w ≠ b) : X4 m ρ c b = X3 m ρ c b :=
  withArrays_of_ne spec0 c _ _ b hb
abbrev XV4 : (c : Dev nD) → (b : Ref sig .tc) → Buf (Elt F) ((c : Thread nD τ).loc b) := fun c b => X4 m ρ c b
abbrev XW4 := [arrRef spec0 2] ++ XW3
theorem X4_kept (h : b ∉ XW4) : X4 m ρ c b = X0 m ρ c b :=
  kept_step (withArrays_keeps c b cfg0 launch0.win.arr_inj _ _ (A_eq0 _ c) 2 (by decide)) (X3_kept m ρ c b) h

abbrev X5 : Dev nD → Valuation τ sig (Elt F) := fun c => StableHlo.after hostOps1 (X4 m ρ c)
abbrev XV5 : (c : Dev nD) → (b : Ref sig .tc) → Buf (Elt F) ((c : Thread nD τ).loc b) := fun c b => X5 m ρ c b
theorem X5_of (r : Ref sig .tc) (h : r ∉ hostOps1_W) : X5 m ρ c r = X4 m ρ c r :=
  StableHlo.after_of_writes_sub hostOps1 _ hostOps1_writes h
abbrev XW5 := hostOps1_W ++ XW4
theorem X5_kept (h : b ∉ XW5) : X5 m ρ c b = X0 m ρ c b :=
  kept_step (X5_of m ρ c b) (X4_kept m ρ c b) h

def X6 : Valuation τ sig (Elt F) :=
  withArrays spec1 c (X5 m ρ c) fun w => (dat1 (XV5 m ρ) c).arrAt w cfg1.N
theorem X6_arr (w : Fin cfg1.W) : X6 m ρ c (arrRef spec1 w) = (dat1 (XV5 m ρ) c).arrAt w cfg1.N :=
  withArrays_arr spec1 launch1.win.arr_inj c _ _ w
theorem X6_of_ne (hb : ∀ w, arrRef spec1 w ≠ b) : X6 m ρ c b = X5 m ρ c b :=
  withArrays_of_ne spec1 c _ _ b hb
abbrev XV6 : (c : Dev nD) → (b : Ref sig .tc) → Buf (Elt F) ((c : Thread nD τ).loc b) := fun c b => X6 m ρ c b
abbrev XW6 := [arrRef spec1 2] ++ XW5
theorem X6_kept (h : b ∉ XW6) : X6 m ρ c b = X0 m ρ c b :=
  kept_step (withArrays_keeps c b cfg1 launch1.win.arr_inj _ _ (A_eq1 _ c) 2 (by decide)) (X5_kept m ρ c b) h

def X7 : Valuation τ sig (Elt F) :=
  withArrays spec2 c (X6 m ρ c) fun w => (dat2 (XV6 m ρ) c).arrAt w cfg2.N
theorem X7_arr (w : Fin cfg2.W) : X7 m ρ c (arrRef spec2 w) = (dat2 (XV6 m ρ) c).arrAt w cfg2.N :=
  withArrays_arr spec2 launch2.win.arr_inj c _ _ w
theorem X7_of_ne (hb : ∀ w, arrRef spec2 w ≠ b) : X7 m ρ c b = X6 m ρ c b :=
  withArrays_of_ne spec2 c _ _ b hb
abbrev XV7 : (c : Dev nD) → (b : Ref sig .tc) → Buf (Elt F) ((c : Thread nD τ).loc b) := fun c b => X7 m ρ c b
abbrev XW7 := [arrRef spec2 2] ++ XW6
theorem X7_kept (h : b ∉ XW7) : X7 m ρ c b = X0 m ρ c b :=
  kept_step (withArrays_keeps c b cfg2 launch2.win.arr_inj _ _ (A_eq2 _ c) 2 (by decide)) (X6_kept m ρ c b) h

abbrev X8 : Dev nD → Valuation τ sig (Elt F) := fun c => StableHlo.after hostOps3 (X7 m ρ c)
abbrev XV8 : (c : Dev nD) → (b : Ref sig .tc) → Buf (Elt F) ((c : Thread nD τ).loc b) := fun c b => X8 m ρ c b
theorem X8_of (r : Ref sig .tc) (h : r ∉ hostOps3_W) : X8 m ρ c r = X7 m ρ c r :=
  StableHlo.after_of_writes_sub hostOps3 _ hostOps3_writes h
abbrev XW8 := hostOps3_W ++ XW7
theorem X8_kept (h : b ∉ XW8) : X8 m ρ c b = X0 m ρ c b :=
  kept_step (X8_of m ρ c b) (X7_kept m ρ c b) h

def X9 : Valuation τ sig (Elt F) :=
  withArrays spec3 c (X8 m ρ c) fun w => (dat3 (XV8 m ρ) c).arrAt w cfg3.N
theorem X9_arr (w : Fin cfg3.W) : X9 m ρ c (arrRef spec3 w) = (dat3 (XV8 m ρ) c).arrAt w cfg3.N :=
  withArrays_arr spec3 launch3.win.arr_inj c _ _ w
theorem X9_of_ne (hb : ∀ w, arrRef spec3 w ≠ b) : X9 m ρ c b = X8 m ρ c b :=
  withArrays_of_ne spec3 c _ _ b hb
abbrev XV9 : (c : Dev nD) → (b : Ref sig .tc) → Buf (Elt F) ((c : Thread nD τ).loc b) := fun c b => X9 m ρ c b
abbrev XW9 := [arrRef spec3 2] ++ XW8
theorem X9_kept (h : b ∉ XW9) : X9 m ρ c b = X0 m ρ c b :=
  kept_step (withArrays_keeps c b cfg3 launch3.win.arr_inj _ _ (A_eq3 _ c) 2 (by decide)) (X8_kept m ρ c b) h

def X10 : Valuation τ sig (Elt F) :=
  withArrays spec4 c (X9 m ρ c) fun w => (dat4 (XV9 m ρ) c).arrAt w cfg4.N
theorem X10_arr (w : Fin cfg4.W) : X10 m ρ c (arrRef spec4 w) = (dat4 (XV9 m ρ) c).arrAt w cfg4.N :=
  withArrays_arr spec4 launch4.win.arr_inj c _ _ w
theorem X10_of_ne (hb : ∀ w, arrRef spec4 w ≠ b) : X10 m ρ c b = X9 m ρ c b :=
  withArrays_of_ne spec4 c _ _ b hb
abbrev XV10 : (c : Dev nD) → (b : Ref sig .tc) → Buf (Elt F) ((c : Thread nD τ).loc b) := fun c b => X10 m ρ c b
abbrev XW10 := [arrRef spec4 2] ++ XW9
theorem X10_kept (h : b ∉ XW10) : X10 m ρ c b = X0 m ρ c b :=
  kept_step (withArrays_keeps c b cfg4 launch4.win.arr_inj _ _ (A_eq4 _ c) 2 (by decide)) (X9_kept m ρ c b) h

abbrev X11 : Dev nD → Valuation τ sig (Elt F) := fun c => StableHlo.after hostOps5 (X10 m ρ c)
abbrev XV11 : (c : Dev nD) → (b : Ref sig .tc) → Buf (Elt F) ((c : Thread nD τ).loc b) := fun c b => X11 m ρ c b
abbrev XW11 := hostOps5_W ++ XW10
theorem X11_kept (h : b ∉ XW11) : X11 m ρ c b = X0 m ρ c b :=
  kept_step (StableHlo.after_of_writes_sub hostOps5 _ hostOps5_writes) (X10_kept m ρ c b) h

def X12 : Valuation τ sig (Elt F) :=
  withArrays spec5 c (X11 m ρ c) fun w => (dat5 (XV11 m ρ) c).arrAt w cfg5.N
theorem X12_arr (w : Fin cfg5.W) : X12 m ρ c (arrRef spec5 w) = (dat5 (XV11 m ρ) c).arrAt w cfg5.N :=
  withArrays_arr spec5 launch5.win.arr_inj c _ _ w
abbrev XV12 : (c : Dev nD) → (b : Ref sig .tc) → Buf (Elt F) ((c : Thread nD τ).loc b) := fun c b => X12 m ρ c b
abbrev XW12 := [arrRef spec5 2] ++ XW11
theorem X12_kept (h : b ∉ XW12) : X12 m ρ c b = X0 m ρ c b :=
  kept_step (withArrays_keeps c b cfg5 launch5.win.arr_inj _ _ (A_eq5 _ c) 2 (by decide)) (X11_kept m ρ c b) h

abbrev X13 : Dev nD → Valuation τ sig (Elt F) := fun c => StableHlo.after hostOps6 (X12 m ρ c)
abbrev XV13 : (c : Dev nD) → (b : Ref sig .tc) → Buf (Elt F) ((c : Thread nD τ).loc b) := fun c b => X13 m ρ c b
theorem X13_of (r : Ref sig .tc) (h : r ∉ hostOps6_W) : X13 m ρ c r = X12 m ρ c r :=
  StableHlo.after_of_writes_sub hostOps6 _ hostOps6_writes h
abbrev XW13 := hostOps6_W ++ XW12
theorem X13_kept (h : b ∉ XW13) : X13 m ρ c b = X0 m ρ c b :=
  kept_step (X13_of m ρ c b) (X12_kept m ρ c b) h

def X14 : Valuation τ sig (Elt F) :=
  withArrays spec6 c (X13 m ρ c) fun w => (dat6 (XV13 m ρ) c).arrAt w cfg6.N
theorem X14_arr (w : Fin cfg6.W) : X14 m ρ c (arrRef spec6 w) = (dat6 (XV13 m ρ) c).arrAt w cfg6.N :=
  withArrays_arr spec6 launch6.win.arr_inj c _ _ w
abbrev XV14 : (c : Dev nD) → (b : Ref sig .tc) → Buf (Elt F) ((c : Thread nD τ).loc b) := fun c b => X14 m ρ c b
abbrev XW14 := [arrRef spec6 6] ++ XW13
theorem X14_kept (h : b ∉ XW14) : X14 m ρ c b = X0 m ρ c b :=
  kept_step (withArrays_keeps c b cfg6 launch6.win.arr_inj _ _ (A_eq6 _ c) 6 (by decide)) (X13_kept m ρ c b) h

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Frm

end
-- ==== Proof.KRunRegs.lean ====
import proofs.«404386_j43679817400704_2_alg».proof.Proof.Gen.Kernel.Regions
import proofs.«404386_j43679817400704_2_alg».proof.Proof.KBodyA
import proofs.«404386_j43679817400704_2_alg».proof.Proof.KDefs6
import proofs.«404386_j43679817400704_2_alg».proof.Proof.KRunFold
import Idealize.ShloMosaic.Lib.Pipeline.RegionsLoop

noncomputable section

namespace Cert.Kernel.Frm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 7) → (c : Dev nD) → Dat τ (Elt F) Unit ℕ (UR sig nD τ) ℕ (Pipeline.pin (pcfgs (F := F)) adm p) c
  | ⟨0, _⟩ => fun c => dat0 (XV3 m ρ) c
  | ⟨1, _⟩ => fun c => dat1 (XV5 m ρ) c
  | ⟨2, _⟩ => fun c => dat2 (XV6 m ρ) c
  | ⟨3, _⟩ => fun c => dat3 (XV8 m ρ) c
  | ⟨4, _⟩ => fun c => dat4 (XV9 m ρ) c
  | ⟨5, _⟩ => fun c => dat5 (XV11 m ρ) c
  | ⟨6, _⟩ => fun c => dat6 (XV13 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev Tₙ (c : Dev nD) : sProp 𝕄 := iprop(StableHlo.held (c : Thread nD τ) (Pipeline.ucRefs τ sig) (X14 m ρ c) ∗ ∃ r, prngReg c r)

-- Every call's proof data holds its inputs at the full share, owes nothing, bounds no recorded pair, and starts from the plain invariant.
theorem plain (p : Fin 7) (c : Dev nD) : (∀ w, (pdats m ρ p c).q w = fullShare) ∧ (∀ t, (pdats m ρ p c).owed t = 0)
    ∧ (pdats m ρ p c).recorded 0 = Set.univ ∧ (pdats m ρ p c).Φ 0 = Pipeline.ΦA (cfgs p).spec c := by
  fin_cases p <;> exact ⟨fun _ => rfl, fun _ => rfl, rfl, rfl⟩

-- A call entered from every unscoped buffer at V and left at V': its arrays are split out and put back, the rest rides along.
def reg {p : Fin 7} (lf : Pipeline.LaunchFacts (nD := nD) (τ := τ) cfgs p) (V : Dev nD → Valuation τ sig (Elt F))
    {post : Dev nD → sProp 𝕄}
    (hb : ∀ c, BodyObligation (pdats m ρ p c) (defs₀ (F := F)) Variants.none () Set.univ)
    (hA : ∀ c w, (pdats m ρ p c).A w = V c (Pipeline.arrRef (cfgs p).spec w))
    (hΦ : ∀ c, (pdats m ρ p c).Φ (Fin.last _) ⊢ (Pipeline.ΦA (cfgs p).spec c : sProp 𝕄))
    (hpost : ∀ c : Dev nD, iprop(StableHlo.held (c : Thread nD τ) (Pipeline.ucRefs τ sig)
      (Pipeline.withArrays (cfgs p).spec c (V c) fun w => (pdats m ρ p c).arrAt w (cfgs p).N) ∗ R c) ⊢ post c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (plain m ρ p c).2.1
  pre c := iprop(StableHlo.held (c : Thread nD τ) (Pipeline.ucRefs τ sig) (V c) ∗ R c)
  post := post
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    have hsplit := Pipeline.arrays_of_unscopedBufs (p := p) (pcfgs (F := F)) adm (pdats m ρ) lf.win lf.arr_whole c
      ((pdats m ρ p c).share_full (plain m ρ p c).1) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [(plain m ρ p c).2.1]
      icases HO with ⟨%W, HO⟩; iexists W; isplitr; · ipureintro; exact fun _ _ => Or.inl ((plain m ρ p c).2.2.1 ▸ trivial)
      iexact HO
    isplitl [Hp]; · iexact Hp
    iexact Hrest
  hin c := by
    rw [(plain m ρ p c).2.2.2]; unfold Pipeline.ΦA
    iintro ⟨Hp, -, Hr⟩
    isplitl [Hr]; · iexact Hr
    iexact Hp
  hout c := by
    rw [Pipeline.ownSems0_none]; refine (hΦ c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (plain m ρ p c).1)
      (fun b => V c b) (fun b => (Pipeline.withArrays (cfgs p).spec c (V c) fun w => (pdats m ρ p c).arrAt w (cfgs p).N) b) _
      (fun w => (Pipeline.withArrays_arr _ lf.win.arr_inj c _ _ w).symm) fun b => withArrays_rest c b _ _ _
    rw [Pipeline.unscopedBufs_held] at hjoin
    iintro ⟨Ha, HO, HY, Hrest⟩
    imodintro
    iapply hpost
    isplitl [Ha Hrest]
    · iapply hjoin; isplitl [Ha] <;> iassumption
    isplitl [HY]; · iexact HY
    unfold Pipeline.Dat.owesAt Pipeline.owesWithin; rw [(plain m ρ p c).2.1]
    icases HO with ⟨%W, -, HO⟩; iexists W; iexact HO

def reg0 :=
  reg m ρ launch0 (X3 m ρ) (body_obligation0 _) (fun _ _ => rfl) (fun _ => .rfl) fun _ => .rfl

def reg1 :=
  reg m ρ launch1 (X5 m ρ) (body_obligation1 _) (fun _ _ => rfl) (fun _ => .rfl) fun _ => .rfl

def reg2 :=
  reg m ρ launch2 (X6 m ρ) (body_obligation2 _) (fun _ _ => rfl) (fun _ => .rfl) fun _ => .rfl

def reg3 :=
  reg m ρ launch3 (X8 m ρ) (body_obligation3 _) (fun _ _ => rfl) (fun _ => .rfl) fun _ => .rfl

def reg4 :=
  reg m ρ launch4 (X9 m ρ) (body_obligation4 _) (fun _ _ => rfl) (fun _ => .rfl) fun _ => .rfl

def reg5 :=
  reg m ρ launch5 (X11 m ρ) (body_obligation5 _) (fun _ _ => rfl) (fun _ => .rfl) fun _ => .rfl

def reg6 :=
  reg m ρ launch6 (X13 m ρ) (body_obligation6 _) (fun _ _ => rfl) (Φ6_last _)
    (post := fun c => iprop(Tₙ m ρ c ∗ ∃ W, owes (c : Thread nD τ) (0 : CellTallies nD τ sig Unit) W)) fun _ => sep_assoc.2

end Cert.Kernel.Frm

end
-- ==== Proof.KRun.lean ====
import proofs.«404386_j43679817400704_2_alg».proof.Proof.Gen.Kernel.Launch
import proofs.«404386_j43679817400704_2_alg».proof.Proof.Gen.Kernel.Skeleton
import proofs.«404386_j43679817400704_2_alg».proof.Proof.Gen.Kernel.Points
import proofs.«404386_j43679817400704_2_alg».proof.Proof.Gen.Kernel.Regions
import proofs.«404386_j43679817400704_2_alg».proof.Proof.KBodyA
import proofs.«404386_j43679817400704_2_alg».proof.Proof.KDefs6
import proofs.«404386_j43679817400704_2_alg».proof.Proof.KRunFold
import proofs.«404386_j43679817400704_2_alg».proof.Proof.KRunRegs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [
    .host (hseg hostOps0 hostOps0_sub hostOps0_fresh (X0 m ρ)),
    .host (hseg hostOps0_1 hostOps0_1_sub hostOps0_1_fresh (X1 m ρ)),
    .host (hseg hostOps0_2 hostOps0_2_sub hostOps0_2_fresh (X2 m ρ)),
    .region (reg0 m ρ),
    .host (hseg hostOps1 hostOps1_sub hostOps1_fresh (X4 m ρ)),
    .region (reg1 m ρ),
    .region (reg2 m ρ),
    .host (hseg hostOps3 hostOps3_sub hostOps3_fresh (X7 m ρ)),
    .region (reg3 m ρ),
    .region (reg4 m ρ),
    .host (hseg hostOps5 hostOps5_sub hostOps5_fresh (X10 m ρ)),
    .region (reg5 m ρ),
    .host (hseg hostOps6 hostOps6_sub hostOps6_fresh (X12 m ρ)),
    .region (reg6 m ρ) ]

theorem main_run (c : Dev nD) : main (F := F) c = Pipeline.Seg.run (segs m ρ) := by
  rewrite [main_chain c, Pipeline.Seg.run_eq_chain]
  rfl

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = X14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (X0 m ρ c)
        from Pipeline.unscopedBufs_held c (X0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X14 m ρ c b)
    (hfin := fun c s' => by
      iintro ⟨⟨Hh, -⟩, HSI⟩
      unfold StableHlo.held
      imodintro
      iapply (pointsTo_read_all (Pipeline.ucRefs τ sig) (fun b => (((c : Thread nD τ)).1, b)) (X14 m ρ c) s')
      isplitl [Hh] <;> iassumption)
    (hQ := fun s h => h)

abbrev argRefs : List (Ref sig .tc) :=
  [main_arg0, main_arg1, main_arg2, main_arg3, main_arg4, main_arg5, main_arg6, main_arg7, main_arg8, main_arg9, main_arg10, main_arg11, main_arg12]

-- An argument's buffer is unscoped and no item writes it, so a memory at the last boundary's contents has it as launched.
theorem args_kept (μ : (ℓ : Loc nD τ sig) → Buf (Elt F) ℓ) (c : Dev nD)
    (h : ∀ b ∈ Pipeline.ucRefs τ sig, μ (((c : Thread nD τ)).1, b) = X14 m ρ c b) :
    argRefs.Forall fun b => μ ((c.tc : Thread nD τ).loc b) = m ((c.tc : Thread nD τ).loc b) :=
  List.forall_iff_forall_mem.mpr fun b hb =>
    (h _ (mem_uc b ((by decide : ∀ b ∈ argRefs, ¬ (Proc.devRef .tc b : DevRef τ sig).isScoped) b hb))).trans
      (X14_kept m ρ c b ((by decide : ∀ b ∈ argRefs, b ∉ XW14) b hb))

theorem frame : θ_run defs (onTc (τ := τ) (main (F := F))) ⟨m, fun _ => 0, ρ⟩ (fun r => ∀ c : Dev nD,
      argRefs.Forall fun b => r.2.mem ((c.tc : Thread nD τ).loc b) = m ((c.tc : Thread nD τ).loc b)) :=
  (θ_run defs _ _).mono (fun r h c => args_kept m ρ r.2.mem c (h c)) (run_all m ρ)

end Cert.Kernel.Frm

end
-- ==== Proof.KIDefs.lean ====
import proofs.«404386_j43679817400704_2_alg».proof.Proof.Gen.KernelIdeal.Launch
import proofs.«404386_j43679817400704_2_alg».proof.Proof.Gen.KernelIdeal.Skeleton
import proofs.«404386_j43679817400704_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk (cfg : Cfg sig Λ₀) (c : Dev nD) (w : Fin cfg.W) (t : Fin cfg.N) : ((cfg.win w).xblock (cfg.grid.coords t)).Idx → Elt F (cfg.win w).elt :=
  ((cfg.win w).blk t).view.read (Elt F) (V c (Pipeline.arrRef cfg.spec w))

abbrev r10000x4 : Rect S10000x4 := Rect.unit (s := S10000x4) ![0, 0] S10000x4.size inb_S10000x4_S10000x4_0_0
abbrev r4x64 : Rect S4x64 := Rect.unit (s := S4x64) ![0, 0] S4x64.size inb_S4x64_S4x64_0_0
abbrev r10000x64 : Rect S10000x64 := Rect.unit (s := S10000x64) ![0, 0] S10000x64.size inb_S10000x64_S10000x64_0_0
abbrev r1x64 : Rect S1x64 := Rect.unit (s := S1x64) ![0, 0] S1x64.size inb_S1x64_S1x64_0_0
abbrev r64x64 : Rect S64x64 := Rect.unit (s := S64x64) ![0, 0] S64x64.size inb_S64x64_S64x64_0_0

def out0_2 (x0 : Vec F S10000x4 .f32) (x1 : Vec F S4x64 .f32) : Vec F S10000x64 .f32 :=
  View.canon [⟨r10000x64, k0_pay1 (View.ld x0 r10000x4) (View.ld x1 r4x64)⟩]

def dat0 (c : Dev nD) : Dat τ (Elt F) Unit ℕ (UR sig nD τ) ℕ cfg0 c where
  A w := V c (Pipeline.arrRef spec0 w)
  after w t := match w with
    | ⟨0, _⟩ => iblk V cfg0 c 0 t
    | ⟨1, _⟩ => iblk V cfg0 c 1 t
    | ⟨2, _⟩ => out0_2 (iblk V cfg0 c 0 t) (iblk V cfg0 c 1 t)
  Φ _ := Pipeline.ΦA spec0 c
  q _ := fullShare
  owed _ := 0

theorem A_eq0 (c : Dev nD) (w : Fin cfg0.W) : (dat0 V c).A w = V c (Pipeline.arrRef spec0 w) := rfl
theorem after0_0 (c : Dev nD) (t : Fin cfg0.N) : (dat0 V c).after 0 t = iblk V cfg0 c 0 t := by dsimp only [dat0]
theorem after0_1 (c : Dev nD) (t : Fin cfg0.N) : (dat0 V c).after 1 t = iblk V cfg0 c 1 t := by dsimp only [dat0]
theorem after0_2 (c : Dev nD) (t : Fin cfg0.N) : (dat0 V c).after 2 t = out0_2 (iblk V cfg0 c 0 t) (iblk V cfg0 c 1 t) := by dsimp only [dat0]

def out1_2 (x0 : Vec F S10000x64 .f32) (x1 : Vec F S1x64 .f32) : Vec F S10000x64 .f32 :=
  View.canon [⟨r10000x64, k1_pay1 (View.ld x0 r10000x64) (View.ld x1 r1x64)⟩]

def dat1 (c : Dev nD) : Dat τ (Elt F) Unit ℕ (UR sig nD τ) ℕ cfg1 c where
  A w := V c (Pipeline.arrRef spec1 w)
  after w t := match w with
    | ⟨0, _⟩ => iblk V cfg1 c 0 t
    | ⟨1, _⟩ => iblk V cfg1 c 1 t
    | ⟨2, _⟩ => out1_2 (iblk V cfg1 c 0 t) (iblk V cfg1 c 1 t)
  Φ _ := Pipeline.ΦA spec1 c
  q _ := fullShare
  owed _ := 0

theorem A_eq1 (c : Dev nD) (w : Fin cfg1.W) : (dat1 V c).A w = V c (Pipeline.arrRef spec1 w) := rfl
theorem after1_0 (c : Dev nD) (t : Fin cfg1.N) : (dat1 V c).after 0 t = iblk V cfg1 c 0 t := by dsimp only [dat1]
theorem after1_1 (c : Dev nD) (t : Fin cfg1.N) : (dat1 V c).after 1 t = iblk V cfg1 c 1 t := by dsimp only [dat1]
theorem after1_2 (c : Dev nD) (t : Fin cfg1.N) : (dat1 V c).after 2 t = out1_2 (iblk V cfg1 c 0 t) (iblk V cfg1 c 1 t) := by dsimp only [dat1]

def out2_2 (x0 : Vec F S10000x64 .f32) (x1 : Vec F S64x64 .f32) : Vec F S10000x64 .f32 :=
  View.canon [⟨r10000x64, k2_pay1 (View.ld x0 r10000x64) (View.ld x1 r64x64)⟩]

def dat2 (c : Dev nD) : Dat τ (Elt F) Unit ℕ (UR sig nD τ) ℕ cfg2 c where
  A w := V c (Pipeline.arrRef spec2 w)
  after w t := match w with
    | ⟨0, _⟩ => iblk V cfg2 c 0 t
    | ⟨1, _⟩ => iblk V cfg2 c 1 t
    | ⟨2, _⟩ => out2_2 (iblk V cfg2 c 0 t) (iblk V cfg2 c 1 t)
  Φ _ := Pipeline.ΦA spec2 c
  q _ := fullShare
  owed _ := 0

theorem A_eq2 (c : Dev nD) (w : Fin cfg2.W) : (dat2 V c).A w = V c (Pipeline.arrRef spec2 w) := rfl
theorem after2_0 (c : Dev nD) (t : Fin cfg2.N) : (dat2 V c).after 0 t = iblk V cfg2 c 0 t := by dsimp only [dat2]
theorem after2_1 (c : Dev nD) (t : Fin cfg2.N) : (dat2 V c).after 1 t = iblk V cfg2 c 1 t := by dsimp only [dat2]
theorem after2_2 (c : Dev nD) (t : Fin cfg2.N) : (dat2 V c).after 2 t = out2_2 (iblk V cfg2 c 0 t) (iblk V cfg2 c 1 t) := by dsimp only [dat2]

def out3_2 (x0 : Vec F S10000x64 .f32) (x1 : Vec F S1x64 .f32) : Vec F S10000x64 .f32 :=
  View.canon [⟨r10000x64, k3_pay1 (View.ld x0 r10000x64) (View.ld x1 r1x64)⟩]

def dat3 (c : Dev nD) : Dat τ (Elt F) Unit ℕ (UR sig nD τ) ℕ cfg3 c where
  A w := V c (Pipeline.arrRef spec3 w)
  after w t := match w with
    | ⟨0, _⟩ => iblk V cfg3 c 0 t
    | ⟨1, _⟩ => iblk V cfg3 c 1 t
    | ⟨2, _⟩ => out3_2 (iblk V cfg3 c 0 t) (iblk V cfg3 c 1 t)
  Φ _ := Pipeline.ΦA spec3 c
  q _ := fullShare
  owed _ := 0

theorem A_eq3 (c : Dev nD) (w : Fin cfg3.W) : (dat3 V c).A w = V c (Pipeline.arrRef spec3 w) := rfl
theorem after3_0 (c : Dev nD) (t : Fin cfg3.N) : (dat3 V c).after 0 t = iblk V cfg3 c 0 t := by dsimp only [dat3]
theorem after3_1 (c : Dev nD) (t : Fin cfg3.N) : (dat3 V c).after 1 t = iblk V cfg3 c 1 t := by dsimp only [dat3]
theorem after3_2 (c : Dev nD) (t : Fin cfg3.N) : (dat3 V c).after 2 t = out3_2 (iblk V cfg3 c 0 t) (iblk V cfg3 c 1 t) := by dsimp only [dat3]

def out4_2 (x0 : Vec F S10000x64 .f32) (x1 : Vec F S64x64 .f32) : Vec F S10000x64 .f32 :=
  View.canon [⟨r10000x64, k4_pay1 (View.ld x0 r10000x64) (View.ld x1 r64x64)⟩]

def dat4 (c : Dev nD) : Dat τ (Elt F) Unit ℕ (UR sig nD τ) ℕ cfg4 c where
  A w := V c (Pipeline.arrRef spec4 w)
  after w t := match w with
    | ⟨0, _⟩ => iblk V cfg4 c 0 t
    | ⟨1, _⟩ => iblk V cfg4 c 1 t
    | ⟨2, _⟩ => out4_2 (iblk V cfg4 c 0 t) (iblk V cfg4 c 1 t)
  Φ _ := Pipeline.ΦA spec4 c
  q _ := fullShare
  owed _ := 0

theorem A_eq4 (c : Dev nD) (w : Fin cfg4.W) : (dat4 V c).A w = V c (Pipeline.arrRef spec4 w) := rfl
theorem after4_0 (c : Dev nD) (t : Fin cfg4.N) : (dat4 V c).after 0 t = iblk V cfg4 c 0 t := by dsimp only [dat4]
theorem after4_1 (c : Dev nD) (t : Fin cfg4.N) : (dat4 V c).after 1 t = iblk V cfg4 c 1 t := by dsimp only [dat4]
theorem after4_2 (c : Dev nD) (t : Fin cfg4.N) : (dat4 V c).after 2 t = out4_2 (iblk V cfg4 c 0 t) (iblk V cfg4 c 1 t) := by dsimp only [dat4]

def out5_2 (x0 : Vec F S10000x64 .f32) (x1 : Vec F S1x64 .f32) : Vec F S10000x64 .f32 :=
  View.canon [⟨r10000x64, k5_pay1 (View.ld x0 r10000x64) (View.ld x1 r1x64)⟩]

def dat5 (c : Dev nD) : Dat τ (Elt F) Unit ℕ (UR sig nD τ) ℕ cfg5 c where
  A w := V c (Pipeline.arrRef spec5 w)
  after w t := match w with
    | ⟨0, _⟩ => iblk V cfg5 c 0 t
    | ⟨1, _⟩ => iblk V cfg5 c 1 t
    | ⟨2, _⟩ => out5_2 (iblk V cfg5 c 0 t) (iblk V cfg5 c 1 t)
  Φ _ := Pipeline.ΦA spec5 c
  q _ := fullShare
  owed _ := 0

theorem A_eq5 (c : Dev nD) (w : Fin cfg5.W) : (dat5 V c).A w = V c (Pipeline.arrRef spec5 w) := rfl
theorem after5_0 (c : Dev nD) (t : Fin cfg5.N) : (dat5 V c).after 0 t = iblk V cfg5 c 0 t := by dsimp only [dat5]
theorem after5_1 (c : Dev nD) (t : Fin cfg5.N) : (dat5 V c).after 1 t = iblk V cfg5 c 1 t := by dsimp only [dat5]
theorem after5_2 (c : Dev nD) (t : Fin cfg5.N) : (dat5 V c).after 2 t = out5_2 (iblk V cfg5 c 0 t) (iblk V cfg5 c 1 t) := by dsimp only [dat5]

end

end Cert.KernelIdeal.Frm

end
-- ==== Proof.KIBodyA.lean ====
import proofs.«404386_j43679817400704_2_alg».proof.Proof.KIDefs

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- A program that loads two inputs, stores `pay` of them over an output that the one store tiles, and returns: the inputs stay, the output is `pay` of them, `P` and `Q` pass through. -/
theorem wp_body3 (c : Dev nD) {s0 s1 s2 : Shape} {a0 : Memref sig .tc .vmem s0 .f32} {r0 : Rect s0} {h0 : a0.view.LoadsAt r0.toLoadRect}
    {a1 : Memref sig .tc .vmem s1 .f32} {r1 : Rect s1} {h1 : a1.view.LoadsAt r1.toLoadRect}
    {a2 : Memref sig .tc .vmem s2 .f32} {r2 : Rect s2} {h2 : a2.view.LoadsAt r2.toLoadRect} {hs : (a2.access r2).Stores Finset.univ}
    {pay : (r0.toLoadRect.shape.Idx → Elt F .f32) → (r1.toLoadRect.shape.Idx → Elt F .f32) → r2.shape.Idx → Elt F .f32}
    {P Q : sProp 𝕄} {D0 D1 D2 : Type} {b0 : D0 → Vec F s0 .f32} {b1 : D1 → Vec F s1 .f32} {b2 : D2 → Vec F s2 .f32}
    {x0 : Vec F s0 .f32} {x1 : Vec F s1 .f32} (hb0 : ∀ d, b0 d = x0) (hb1 : ∀ d, b1 d = x1)
    (hcov : ∀ p, View.Piece.tiled ([⟨r2, p⟩] : List (View.Piece (Elt F) s2 .f32)) s2.size = true) :
    iprop(P ∗ Q ∗ (∃ d, owns (c : Thread nD τ) a0 fullShare (b0 d)) ∗ (∃ d, owns (c : Thread nD τ) a1 fullShare (b1 d))
        ∗ (∃ d, owns (c : Thread nD τ) a2 fullShare (b2 d)))
      ⊢ wp frame (wpE (defs₀ (F := F)) Variants.none c none) Set.univ
          (do let v0 ← Prog.lift (.load a0 r0.toLoadRect h0)
              let v1 ← Prog.lift (.load a1 r1.toLoadRect h1)
              let _ ← Prog.lift (.load a2 r2.toLoadRect h2)
              Prog.lift (.store a2 r2 (pay v0 v1) Finset.univ hs (.inl rfl))
              pure ⟨⟩ : Prog (TpuEff nD τ sig (Elt F) Λ₀ .tc) PUnit) fun _ =>
        iprop(P ∗ Q ∗ owns (c : Thread nD τ) a0 fullShare x0 ∗ owns (c : Thread nD τ) a1 fullShare x1
          ∗ owns (c : Thread nD τ) a2 fullShare (View.canon [⟨r2, pay (View.ld x0 r0) (View.ld x1 r1)⟩])) := by
  simp only [hb0, hb1]
  unfold owns
  iintro ⟨HP, HQ, ⟨%_, %f0, %hf0, H0⟩, ⟨%_, %f1, %hf1, H1⟩, ⟨%_, %f2, -, H2⟩⟩
  subst hf0 hf1
  sl_exec
  sl_step
  iframe
  isplitl [H0]; · iexists f0; iframe; ipureintro; rfl
  isplitl [H1]; · iexists f1; iframe; ipureintro; rfl
  iexists _; iframe; ipureintro
  exact View.read_writes_eq_canon _ _ _ (View.cover_of_tiled _ _ (hcov _))

/-- Calls 0 to 5: each body is `wp_body3` at the call's shapes and payload. -/
theorem body_obligation0 (c : Dev nD) : BodyObligation (dat0 (F := F) V c) (defs₀ (F := F)) Variants.none () Set.univ := fun t => by
  rw [bigSep_W0, bigSep_W0, after0_0, after0_1, after0_2]
  sl_whnfR [defs₀, Defs.onTc]
  rw [cc0__proj_kernel_eq_skeleton]
  refine wp_body3 c ?_ ?_ (fun _ => rfl) <;> apply Dat.before_in_eq_fetched <;> intros <;> rfl

theorem body_obligation1 (c : Dev nD) : BodyObligation (dat1 (F := F) V c) (defs₀ (F := F)) Variants.none () Set.univ := fun t => by
  rw [bigSep_W1, bigSep_W1, after1_0, after1_1, after1_2]
  sl_whnfR [defs₀, Defs.onTc]
  rw [cc1__bias_act_kernel_eq_skeleton]
  refine wp_body3 c ?_ ?_ (fun _ => rfl) <;> apply Dat.before_in_eq_fetched <;> intros <;> rfl

theorem body_obligation2 (c : Dev nD) : BodyObligation (dat2 (F := F) V c) (defs₀ (F := F)) Variants.none () Set.univ := fun t => by
  rw [bigSep_W2, bigSep_W2, after2_0, after2_1, after2_2]
  sl_whnfR [defs₀, Defs.onTc]
  rw [cc2__proj_kernel_eq_skeleton]
  refine wp_body3 c ?_ ?_ (fun _ => rfl) <;> apply Dat.before_in_eq_fetched <;> intros <;> rfl

theorem body_obligation3 (c : Dev nD) : BodyObligation (dat3 (F := F) V c) (defs₀ (F := F)) Variants.none () Set.univ := fun t => by
  rw [bigSep_W3, bigSep_W3, after3_0, after3_1, after3_2]
  sl_whnfR [defs₀, Defs.onTc]
  rw [cc3__bias_act_kernel_eq_skeleton]
  refine wp_body3 c ?_ ?_ (fun _ => rfl) <;> apply Dat.before_in_eq_fetched <;> intros <;> rfl

theorem body_obligation4 (c : Dev nD) : BodyObligation (dat4 (F := F) V c) (defs₀ (F := F)) Variants.none () Set.univ := fun t => by
  rw [bigSep_W4, bigSep_W4, after4_0, after4_1, after4_2]
  sl_whnfR [defs₀, Defs.onTc]
  rw [cc4__proj_kernel_eq_skeleton]
  refine wp_body3 c ?_ ?_ (fun _ => rfl) <;> apply Dat.before_in_eq_fetched <;> intros <;> rfl

theorem body_obligation5 (c : Dev nD) : BodyObligation (dat5 (F := F) V c) (defs₀ (F := F)) Variants.none () Set.univ := fun t => by
  rw [bigSep_W5, bigSep_W5, after5_0, after5_1, after5_2]
  sl_whnfR [defs₀, Defs.onTc]
  rw [cc5__bias_act_kernel_eq_skeleton]
  refine wp_body3 c ?_ ?_ (fun _ => rfl) <;> apply Dat.before_in_eq_fetched <;> intros <;> rfl

end

end Cert.KernelIdeal.Frm

end
-- ==== Proof.KIDefs6.lean ====
import proofs.«404386_j43679817400704_2_alg».proof.Proof.Gen.KernelIdeal.Launch
import proofs.«404386_j43679817400704_2_alg».proof.Proof.Gen.KernelIdeal.Skeleton
import proofs.«404386_j43679817400704_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond6_0 (i : grid6.Coords) : Prop := (Scalar.cmpi .ne (Scalar.extui (Scalar.cmpi .eq (BitVec.ofNat 32 (i 0).val) 0#32)) 0#32) = 1#1
abbrev cond6_1 (i : grid6.Coords) : Prop := k6_cond2 i = 1#1

theorem hcond6_0 : ∀ t : Fin cfg6.N, cond6_0 (grid6.coords t) ↔ t.val % 5 = 0 :=
  (by decide +kernel : ∀ t : Fin grid6.N, cond6_0 (grid6.coords t) ↔ t.val % 5 = 0)
theorem hcond6_1 : ∀ t : Fin cfg6.N, cond6_1 (grid6.coords t) ↔ t.val % 5 = 4 :=
  (by decide +kernel : ∀ t : Fin grid6.N, cond6_1 (grid6.coords t) ↔ t.val % 5 = 4)

theorem hz6 : (![0, 0] : Fin 2 → Nat) = fun _ => 0 := funext fun a => by fin_cases a <;> rfl

-- The rectangle at offset zero with the shape's full extent contains every index.
theorem cover6_one {S : Shape} {e : EltTy} {off : Fin S.rank → Nat} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

-- The step's update of the sums and counts, restarted from zero under the first condition; under the second, the head's value of the updated sums and counts.
set_option maxHeartbeats 1500000 in
theorem kernel6 (c : Dev nD) (E : Set ℕ) (i : grid6.Coords) (arg1 : Memref sig .tc .vmem S10000x64 .f32) (harg1 : arg1.IsWhole) (arg2 : Memref sig .tc .vmem S10000x1 .i32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x4 .f32) (harg5 : arg5.IsWhole) (arg6 : Memref sig .tc .vmem S1x4 .f32) (harg6 : arg6.IsWhole) (arg7 : Memref sig .tc .vmem S64x4 .f32) (harg7 : arg7.IsWhole) (arg8 : Memref sig .tc .vmem S64x64 .f32) (harg8 : arg8.IsWhole) (arg9 : Memref sig .tc .vmem S64x1 .f32) (harg9 : arg9.IsWhole)
    (hx : cond6_0 i → ¬cond6_1 i)
    (x0 : Vec F S10000x64 .f32) (x1 : Vec F S10000x1 .i32) (x2 : Vec F S64x32 .f32) (x3 : Vec F S1x32 .f32)
    (x4 : Vec F S32x4 .f32) (x5 : Vec F S1x4 .f32) (d6 : Vec F S64x4 .f32) (ds : Vec F S64x64 .f32) (dc : Vec F S64x1 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare d6
        ∗ owns (c : Thread nD τ) arg8 fullShare ds ∗ owns (c : Thread nD τ) arg9 fullShare dc
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (if cond6_1 i then k6_pay6 (k6_pay4 x0 x1 (if cond6_0 i then k6_pay1 (F := F) else ds)) (k6_pay5 x1 (if cond6_0 i then k6_pay2 (F := F) else dc)) x2 x3 x4 x5 else d6)
            ∗ owns (c : Thread nD τ) arg8 fullShare (k6_pay4 x0 x1 (if cond6_0 i then k6_pay1 (F := F) else ds))
            ∗ owns (c : Thread nD τ) arg9 fullShare (k6_pay5 x1 (if cond6_0 i then k6_pay2 (F := F) else dc))) -∗ K ⟨⟩))
      ⊢ wp frame (wpE (defs₀ (F := F)) Variants.none c none) E (cc6__pool_head_kernel i arg1 harg1 arg2 harg2 arg3 harg3 arg4 harg4 arg5 harg5 arg6 harg6 arg7 harg7 arg8 harg8 arg9 harg9) K := by
  simp only [cc6__pool_head_kernel_eq_skeleton]; unfold cc6__pool_head_kernel_skel owns
  by_cases hc0 : cond6_0 i <;> by_cases hc1 : cond6_1 i
  · exact absurd hc1 (hx hc0)
  all_goals
    first | rw [if_pos hc0, if_pos hc0] | rw [if_neg hc0, if_neg hc0]
    first | rw [if_pos hc1] | rw [if_neg hc1]
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, ⟨%fc, %hfc, HC⟩, Hk⟩
    obtain rfl := harg1.eq_unread hf0; obtain rfl := harg2.eq_unread hf1
    obtain rfl := harg3.eq_unread hf2; obtain rfl := harg4.eq_unread hf3
    obtain rfl := harg5.eq_unread hf4; obtain rfl := harg6.eq_unread hf5
    obtain rfl := harg8.eq_unread hfs; obtain rfl := harg9.eq_unread hfc
    sl_exec (disch := first | exact hc0 | exact hc1)
    sl_step
    iapply Hk
    isplitl [H0]; rotate_left
    isplitl [H1]; rotate_left
    isplitl [H2]; rotate_left
    isplitl [H3]; rotate_left
    isplitl [H4]; rotate_left
    isplitl [H5]; rotate_left
    isplitl [H6]; rotate_left
    isplitl [HS]; rotate_left
    all_goals
      iexists _; iframe; ipureintro
      first
      | assumption
      | sl_unfold_words
        rw [View.read_writes_eq_canon _ _ _ (cover6_one hz6 _ _ _)]
        first | rw [View.canon_unit_zero hz6] | rw [View.canon_cons_unit_zero hz6]
        simp only [View.readAt_eq_ld, harg1.read_unread, harg2.read_unread, harg3.read_unread, harg4.read_unread, harg5.read_unread, harg6.read_unread,
          harg8.read_unread, harg9.read_unread, View.ld_unit_zero (S := S10000x64) hz6, View.ld_unit_zero (S := S10000x1) hz6, View.ld_unit_zero (S := S64x32) hz6, View.ld_unit_zero (S := S1x32) hz6, View.ld_unit_zero (S := S32x4) hz6, View.ld_unit_zero (S := S1x4) hz6, View.ld_unit_zero (S := S64x64) hz6, View.ld_unit_zero (S := S64x1) hz6, View.readCov_unit_zero (S := S64x64) _ hz6, View.readCov_unit_zero (S := S64x1) _ hz6]

section
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def pt6 (n : ℕ) : Fin cfg6.N := ⟨n % 5, by rw [show cfg6.N = 5 from N_6]; exact Nat.mod_lt _ (by decide)⟩

def accS (c : Dev nD) : ℕ → Vec F S64x64 .f32
  | 0 => k6_pay4 (iblk6 V c 0 (pt6 0)) (iblk6 V c 1 (pt6 0)) (k6_pay1 (F := F))
  | n + 1 => k6_pay4 (iblk6 V c 0 (pt6 (n + 1))) (iblk6 V c 1 (pt6 (n + 1))) (accS c n)

def accC (c : Dev nD) : ℕ → Vec F S64x1 .f32
  | 0 => k6_pay5 (iblk6 V c 1 (pt6 0)) (k6_pay2 (F := F))
  | n + 1 => k6_pay5 (iblk6 V c 1 (pt6 (n + 1))) (accC c n)

def out6_6 (c : Dev nD) : Vec F S64x4 .f32 :=
  k6_pay6 (accS V c 4) (accC V c 4) (iblk6 V c 2 (pt6 4)) (iblk6 V c 3 (pt6 4)) (iblk6 V c 4 (pt6 4)) (iblk6 V c 5 (pt6 4))

def Φ6 (c : Dev nD) : Fin (cfg6.N + 1) → sProp 𝕄
  | ⟨0, _⟩ => Pipeline.ΦA spec6 c
  | ⟨n + 1, _⟩ => iprop((((c : Thread nD τ).loc cc6_scratch0) ↦{fullShare} (accS V c n)) ∗ (((c : Thread nD τ).loc cc6_scratch1) ↦{fullShare} (accC V c n))
      ∗ Pipeline.scopedRestBut (Ix := Unit) (Name := ℕ) (U := UR sig nD τ) (Lvl := ℕ) (Val := Elt F) spec6 c [cc6_scratch0, cc6_scratch1] ∗ ∃ r, prngReg c r)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 V c
  Φ := Φ6 V c
  q _ := fullShare
  owed _ := 0

theorem A_eq6 (c : Dev nD) (w : Fin cfg6.W) : (dat6 V c).A w = V c (Pipeline.arrRef spec6 w) := rfl
theorem after6_0 (c : Dev nD) (t : Fin cfg6.N) : (dat6 V c).after 0 t = iblk6 V c 0 t := rfl
theorem after6_1 (c : Dev nD) (t : Fin cfg6.N) : (dat6 V c).after 1 t = iblk6 V c 1 t := rfl
theorem after6_2 (c : Dev nD) (t : Fin cfg6.N) : (dat6 V c).after 2 t = iblk6 V c 2 t := rfl
theorem after6_3 (c : Dev nD) (t : Fin cfg6.N) : (dat6 V c).after 3 t = iblk6 V c 3 t := rfl
theorem after6_4 (c : Dev nD) (t : Fin cfg6.N) : (dat6 V c).after 4 t = iblk6 V c 4 t := rfl
theorem after6_5 (c : Dev nD) (t : Fin cfg6.N) : (dat6 V c).after 5 t = iblk6 V c 5 t := rfl
theorem after6_6 (c : Dev nD) (t : Fin cfg6.N) : (dat6 V c).after 6 t = out6_6 V c := rfl
theorem Φ6_first (c : Dev nD) : (dat6 V c).Φ 0 = Pipeline.ΦA spec6 c := rfl

-- The step leaves every input block in place, so what an input window holds at a step is what the step leaves there.
theorem before6 (c : Dev nD) (t : Fin cfg6.N) (w : Fin cfg6.W) (hw : w ≠ 6) (d) : (dat6 V c).before w t d = (dat6 V c).after w t := by
  fin_cases w <;> first
    | exact absurd rfl hw
    | exact (dat6 V c).before_in_eq_fetched _ rfl (fun _ => rfl) (fun _ _ _ => rfl) (fun _ => rfl) t d

theorem leaves6 (c : Dev nD) (t : Fin cfg6.N) (w : Fin cfg6.W) (hw : w ≠ 6) :
    (dat6 V c).leavesExact w t = owns (c : Thread nD τ) ((cfg6.win w).stage (cfg6.slots t w)) fullShare ((dat6 V c).after w t) := by
  fin_cases w <;> first | exact absurd rfl hw | rfl

theorem out6_idle : ∀ t : Fin cfg6.N, (cond6_1 (grid6.coords t) → cfg6.idle 6 (grid6.coords t) = false)
    ∧ (¬cond6_1 (grid6.coords t) → cfg6.idle 6 (grid6.coords t) = true ∧ (cfg6.win 6).flush t = false) := by decide +kernel

abbrev sc6_0 : Memref sig .tc .vmem S64x64 .f32 := Memref.whole cc6_scratch0
abbrev sc6_1 : Memref sig .tc .vmem S64x1 .f32 := Memref.whole cc6_scratch1

theorem lt6 (t : Fin cfg6.N) : t.val < 5 := lt_of_lt_of_eq t.isLt (show cfg6.N = 5 from N_6)

theorem pt6_val (t : Fin cfg6.N) : pt6 t.val = t := Fin.ext (Nat.mod_eq_of_lt (lt6 t))

-- The running sums and counts unfold by one step, read at the step's own position.
theorem accS_first (c : Dev nD) (t : Fin cfg6.N) (h : t.val = 0) :
    accS V c t.val = k6_pay4 (iblk6 V c 0 t) (iblk6 V c 1 t) (k6_pay1 (F := F)) := by
  have e := pt6_val t; rw [h] at e ⊢; rw [← e]; rfl

theorem accS_later (c : Dev nD) (t : Fin cfg6.N) (h : t.val ≠ 0) :
    accS V c t.val = k6_pay4 (iblk6 V c 0 t) (iblk6 V c 1 t) (accS V c (t.val - 1)) := by
  obtain ⟨k, hk⟩ := Nat.exists_eq_succ_of_ne_zero h
  have e := pt6_val t; rw [hk] at e ⊢; rw [← e]; rfl

theorem accC_first (c : Dev nD) (t : Fin cfg6.N) (h : t.val = 0) :
    accC V c t.val = k6_pay5 (iblk6 V c 1 t) (k6_pay2 (F := F)) := by
  have e := pt6_val t; rw [h] at e ⊢; rw [← e]; rfl

theorem accC_later (c : Dev nD) (t : Fin cfg6.N) (h : t.val ≠ 0) :
    accC V c t.val = k6_pay5 (iblk6 V c 1 t) (accC V c (t.val - 1)) := by
  obtain ⟨k, hk⟩ := Nat.exists_eq_succ_of_ne_zero h
  have e := pt6_val t; rw [hk] at e ⊢; rw [← e]; rfl

theorem out6_last (c : Dev nD) (t : Fin cfg6.N) (h : t.val = 4) :
    out6_6 V c = k6_pay6 (accS V c t.val) (accC V c t.val) (iblk6 V c 2 t) (iblk6 V c 3 t) (iblk6 V c 4 t) (iblk6 V c 5 t) := by
  have e := pt6_val t; rw [h] at e ⊢; rw [← e]; rfl

theorem Φ6_succ (c : Dev nD) (t : Fin cfg6.N) :
    (dat6 V c).Φ t.succ = iprop(owns (c : Thread nD τ) sc6_0 fullShare (accS V c t.val) ∗ owns (c : Thread nD τ) sc6_1 fullShare (accC V c t.val)
      ∗ Pipeline.scopedRestBut (Ix := Unit) (Name := ℕ) (U := UR sig nD τ) (Lvl := ℕ) (Val := Elt F) spec6 c [cc6_scratch0, cc6_scratch1] ∗ ∃ r, prngReg c r) := by
  obtain ⟨n, hn⟩ := t; simp only [sc6_0, sc6_1, owns_whole]; rfl

-- Before any step the two accumulators hold some contents, and the step's update of them, from zero at the first step, gives the running sums and counts.
theorem Φ6_open (c : Dev nD) (t : Fin cfg6.N) :
    (dat6 V c).Φ t.castSucc ⊢ iprop(∃ ds dc, ⌜accS V c t.val = k6_pay4 (iblk6 V c 0 t) (iblk6 V c 1 t) (if cond6_0 (grid6.coords t) then k6_pay1 (F := F) else ds)
        ∧ accC V c t.val = k6_pay5 (iblk6 V c 1 t) (if cond6_0 (grid6.coords t) then k6_pay2 (F := F) else dc)⌝
      ∗ owns (c : Thread nD τ) sc6_0 fullShare ds ∗ owns (c : Thread nD τ) sc6_1 fullShare dc
      ∗ Pipeline.scopedRestBut (Ix := Unit) (Name := ℕ) (U := UR sig nD τ) (Lvl := ℕ) (Val := Elt F) spec6 c [cc6_scratch0, cc6_scratch1] ∗ ∃ r, prngReg c r) := by
  have hN := lt6 t
  simp only [sc6_0, sc6_1, owns_whole]
  by_cases h0 : t.val = 0
  · have hc0 : cond6_0 (grid6.coords t) := (hcond6_0 t).mpr (by omega)
    obtain ⟨n, hn⟩ := t; obtain rfl : n = 0 := h0
    show (Pipeline.ΦA spec6 c : sProp 𝕄) ⊢ _
    unfold Pipeline.ΦA; rw [scopedRest6_split]
    iintro ⟨⟨⟨⟨%ds, HS⟩, ⟨%dc, HC⟩⟩, HR⟩, Hg⟩
    iexists ds, dc; iframe; ipureintro
    rw [if_pos hc0, if_pos hc0]; exact ⟨accS_first V c _ rfl, accC_first V c _ rfl⟩
  · have hc0 : ¬cond6_0 (grid6.coords t) := fun h => h0 (by have := (hcond6_0 t).mp h; omega)
    obtain ⟨_ | n, hn⟩ := t
    · exact absurd rfl h0
    show iprop(_ ∗ _ ∗ _ ∗ _) ⊢ _
    iintro ⟨HS, HC, HR, Hg⟩
    iexists _, _; iframe; ipureintro
    rw [if_neg hc0, if_neg hc0]; exact ⟨accS_later V c _ h0, accC_later V c _ h0⟩

-- Only the last step produces the output block; every other step leaves the output window as it found it.
theorem leaves6_6 (c : Dev nD) (t : Fin cfg6.N) (d) :
    owns (c : Thread nD τ) (st6_6 t) fullShare (if cond6_1 (grid6.coords t) then k6_pay6 (accS V c t.val) (accC V c t.val) (iblk6 V c 2 t) (iblk6 V c 3 t) (iblk6 V c 4 t) (iblk6 V c 5 t) else (dat6 V c).before 6 t d)
      ⊢ (dat6 V c).leavesExact 6 t := by
  have hN := lt6 t
  by_cases hc1 : cond6_1 (grid6.coords t)
  · rw [if_pos hc1, ← out6_last V c t (by have := (hcond6_1 t).mp hc1; omega)]
    unfold Dat.leavesExact; rw [(out6_idle t).1 hc1, after6_6]
  · rw [if_neg hc1, Dat.leavesExact_idle (dat6 V c) 6 t ((out6_idle t).2 hc1).1 ((out6_idle t).2 hc1).2]
    iintro H; iexists _; iexact H

theorem Φ6_last (c : Dev nD) : (dat6 V c).Φ (Fin.last _) ⊢ (Pipeline.ΦA spec6 c : sProp 𝕄) := by
  show iprop(_ ∗ _ ∗ _ ∗ _) ⊢ _
  unfold Pipeline.ΦA; rw [scopedRest6_split]
  iintro ⟨HS, HC, HR, Hg⟩
  iframe
  isplitl [HS]
  · iexists _; iexact HS
  iexists _; iexact HC

theorem body_obligation6 (c : Dev nD) : BodyObligation (dat6 (F := F) V c) (defs₀ (F := F)) Variants.none () Set.univ := fun t => by
  have hN := lt6 t
  show iprop(_ ∗ _ ∗ bigSep Finset.univ fun w => iprop(∃ d, owns (c : Thread nD τ) _ fullShare ((dat6 V c).before w t d)))
    ⊢ wp _ _ _ (bodyAt6 t) fun _ => iprop(_ ∗ (dat6 V c).owesAt () t.castSucc ∗ bigSep Finset.univ fun w => (dat6 V c).leavesExact w t)
  rw [bigSep_W6, bigSep_W6, Φ6_succ]
  simp only [before6 V c t 0 (by decide), before6 V c t 1 (by decide), before6 V c t 2 (by decide), before6 V c t 3 (by decide), before6 V c t 4 (by decide), before6 V c t 5 (by decide),
    leaves6 V c t 0 (by decide), leaves6 V c t 1 (by decide), leaves6 V c t 2 (by decide), leaves6 V c t 3 (by decide), leaves6 V c t 4 (by decide), leaves6 V c t 5 (by decide),
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩, ⟨%d6, H6⟩⟩
  icases Φ6_open V c t $$ HΦ with ⟨%ds, %dc, %h, HS, HC, HR, Hg⟩
  iapply (kernel6 c Set.univ (grid6.coords t) _ _ _ _ _ _ _ _ _ _ _ _ _ _ _ _ _ _
    (fun a b => by have := (hcond6_0 t).mp a; have := (hcond6_1 t).mp b; omega)
    (iblk6 V c 0 t) (iblk6 V c 1 t) (iblk6 V c 2 t) (iblk6 V c 3 t) (iblk6 V c 4 t) (iblk6 V c 5 t) ((dat6 V c).before 6 t d6) ds dc _)
  rw [← h.1, ← h.2]
  iframe
  iintro ⟨H0, H1, H2, H3, H4, H5, H6, HS, HC⟩
  ihave H6 := leaves6_6 V c t d6 $$ H6
  iframe
end

end Cert.KernelIdeal.Frm

end
-- ==== Proof.KIRunFold.lean ====
import proofs.«404386_j43679817400704_2_alg».proof.Proof.Gen.KernelIdeal.Launch
import proofs.«404386_j43679817400704_2_alg».proof.Proof.Gen.KernelIdeal.Skeleton
import proofs.«404386_j43679817400704_2_alg».proof.Proof.Gen.KernelIdeal.Points
import proofs.«404386_j43679817400704_2_alg».proof.Proof.Gen.KernelIdeal.Regions
import proofs.«404386_j43679817400704_2_alg».proof.Proof.KIBodyA
import proofs.«404386_j43679817400704_2_alg».proof.Proof.KIDefs6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frm

open Idealize.ShloMosaic Idealize.ShloMosaic.TcCoe
open Idealize.ShloMosaic.Pipeline (Dat Cfg WinSpec arrRef withArrays withArrays_arr withArrays_of_ne)
open Cert.KernelIdeal Cert.KernelIdeal.Gen

variable {F : FTy → Type} [FloatOps F] (m : (ℓ : Loc nD τ sig) → Buf (Elt F) ℓ) (ρ : Dev nD → PrngReg) (c : Dev nD) (b : Ref sig .tc)

-- A buffer that is none of a call's arrays is left as the call found it.
theorem withArrays_rest {gr W : Nat} (win : Fin W → WinSpec sig gr) (V : Valuation τ sig (Elt F)) (A)
    (hb : b ∉ Finset.univ.image (arrRef win)) : withArrays win c V A b = V b :=
  withArrays_of_ne win c V A b fun w e => hb (Finset.mem_image.mpr ⟨w, Finset.mem_univ _, e⟩)

-- A call whose arrays other than array o are inputs changes no buffer but array o: an input array is only read.
theorem withArrays_keeps (cfg : Cfg sig Λ₀) (hinj : Function.Injective (arrRef cfg.spec)) (V : Valuation τ sig (Elt F))
    (d : Dat τ (Elt F) Unit ℕ (UR sig nD τ) ℕ cfg c) (hA : ∀ w, d.A w = V (arrRef cfg.spec w))
    (o : Fin cfg.W) (ho : ∀ w, w ≠ o → (cfg.win w).isOut = false) (hb : b ∉ [arrRef cfg.spec o]) :
    withArrays cfg.spec c V (fun w => d.arrAt w cfg.N) b = V b := by
  by_cases h : ∃ w, arrRef cfg.spec w = b
  · obtain ⟨w, rfl⟩ := h
    rw [withArrays_arr _ hinj, d.arrAt_in w (ho w fun e => hb (e ▸ List.mem_singleton_self _)), hA]
  · exact withArrays_of_ne _ c V _ b fun w e => h ⟨w, e⟩

-- What an item leaves alone outside L, and the items before it outside L', is as launched outside L ++ L'.
theorem kept_step {α : Type} {L L' : List α} {b : α} {β : Sort _} {x y z : β} (s : b ∉ L → x = y) (p : b ∉ L' → y = z)
    (h : b ∉ L ++ L') : x = z :=
  (s fun hb => h (List.mem_append_left _ hb)).trans (p fun hb => h (List.mem_append_right _ hb))

abbrev X0 : Dev nD → Valuation τ sig (Elt F) := fun c b => (s₀ m ρ).mem ((c : Dev nD), b)

abbrev X1 : Dev nD → Valuation τ sig (Elt F) := fun c => StableHlo.after hostOps0 (X0 m ρ c)
abbrev XV1 : (c : Dev nD) → (b : Ref sig .tc) → Buf (Elt F) ((c : Thread nD τ).loc b) := fun c b => X1 m ρ c b
abbrev XW1 := hostOps0_W
theorem X1_kept (h : b ∉ XW1) : X1 m ρ c b = X0 m ρ c b :=
  StableHlo.after_of_writes_sub hostOps0 _ hostOps0_writes h

abbrev X2 : Dev nD → Valuation τ sig (Elt F) := fun c => StableHlo.after hostOps0_1 (X1 m ρ c)
abbrev XV2 : (c : Dev nD) → (b : Ref sig .tc) → Buf (Elt F) ((c : Thread nD τ).loc b) := fun c b => X2 m ρ c b
theorem X2_of (r : Ref sig .tc) (h : r ∉ hostOps0_1_W) : X2 m ρ c r = X1 m ρ c r :=
  StableHlo.after_of_writes_sub hostOps0_1 _ hostOps0_1_writes h
abbrev XW2 := hostOps0_1_W ++ XW1
theorem X2_kept (h : b ∉ XW2) : X2 m ρ c b = X0 m ρ c b :=
  kept_step (X2_of m ρ c b) (X1_kept m ρ c b) h

abbrev X3 : Dev nD → Valuation τ sig (Elt F) := fun c => StableHlo.after hostOps0_2 (X2 m ρ c)
abbrev XV3 : (c : Dev nD) → (b : Ref sig .tc) → Buf (Elt F) ((c : Thread nD τ).loc b) := fun c b => X3 m ρ c b
theorem X3_of (r : Ref sig .tc) (h : r ∉ hostOps0_2_W) : X3 m ρ c r = X2 m ρ c r :=
  StableHlo.after_of_writes_sub hostOps0_2 _ hostOps0_2_writes h
abbrev XW3 := hostOps0_2_W ++ XW2
theorem X3_kept (h : b ∉ XW3) : X3 m ρ c b = X0 m ρ c b :=
  kept_step (X3_of m ρ c b) (X2_kept m ρ c b) h

def X4 : Valuation τ sig (Elt F) :=
  withArrays spec0 c (X3 m ρ c) fun w => (dat0 (XV3 m ρ) c).arrAt w cfg0.N
theorem X4_arr (w : Fin cfg0.W) : X4 m ρ c (arrRef spec0 w) = (dat0 (XV3 m ρ) c).arrAt w cfg0.N :=
  withArrays_arr spec0 launch0.win.arr_inj c _ _ w
theorem X4_of_ne (hb : ∀ w, arrRef spec0 w ≠ b) : X4 m ρ c b = X3 m ρ c b :=
  withArrays_of_ne spec0 c _ _ b hb
abbrev XV4 : (c : Dev nD) → (b : Ref sig .tc) → Buf (Elt F) ((c : Thread nD τ).loc b) := fun c b => X4 m ρ c b
abbrev XW4 := [arrRef spec0 2] ++ XW3
theorem X4_kept (h : b ∉ XW4) : X4 m ρ c b = X0 m ρ c b :=
  kept_step (withArrays_keeps c b cfg0 launch0.win.arr_inj _ _ (A_eq0 _ c) 2 (by decide)) (X3_kept m ρ c b) h

abbrev X5 : Dev nD → Valuation τ sig (Elt F) := fun c => StableHlo.after hostOps1 (X4 m ρ c)
abbrev XV5 : (c : Dev nD) → (b : Ref sig .tc) → Buf (Elt F) ((c : Thread nD τ).loc b) := fun c b => X5 m ρ c b
theorem X5_of (r : Ref sig .tc) (h : r ∉ hostOps1_W) : X5 m ρ c r = X4 m ρ c r :=
  StableHlo.after_of_writes_sub hostOps1 _ hostOps1_writes h
abbrev XW5 := hostOps1_W ++ XW4
theorem X5_kept (h : b ∉ XW5) : X5 m ρ c b = X0 m ρ c b :=
  kept_step (X5_of m ρ c b) (X4_kept m ρ c b) h

def X6 : Valuation τ sig (Elt F) :=
  withArrays spec1 c (X5 m ρ c) fun w => (dat1 (XV5 m ρ) c).arrAt w cfg1.N
theorem X6_arr (w : Fin cfg1.W) : X6 m ρ c (arrRef spec1 w) = (dat1 (XV5 m ρ) c).arrAt w cfg1.N :=
  withArrays_arr spec1 launch1.win.arr_inj c _ _ w
theorem X6_of_ne (hb : ∀ w, arrRef spec1 w ≠ b) : X6 m ρ c b = X5 m ρ c b :=
  withArrays_of_ne spec1 c _ _ b hb
abbrev XV6 : (c : Dev nD) → (b : Ref sig .tc) → Buf (Elt F) ((c : Thread nD τ).loc b) := fun c b => X6 m ρ c b
abbrev XW6 := [arrRef spec1 2] ++ XW5
theorem X6_kept (h : b ∉ XW6) : X6 m ρ c b = X0 m ρ c b :=
  kept_step (withArrays_keeps c b cfg1 launch1.win.arr_inj _ _ (A_eq1 _ c) 2 (by decide)) (X5_kept m ρ c b) h

def X7 : Valuation τ sig (Elt F) :=
  withArrays spec2 c (X6 m ρ c) fun w => (dat2 (XV6 m ρ) c).arrAt w cfg2.N
theorem X7_arr (w : Fin cfg2.W) : X7 m ρ c (arrRef spec2 w) = (dat2 (XV6 m ρ) c).arrAt w cfg2.N :=
  withArrays_arr spec2 launch2.win.arr_inj c _ _ w
theorem X7_of_ne (hb : ∀ w, arrRef spec2 w ≠ b) : X7 m ρ c b = X6 m ρ c b :=
  withArrays_of_ne spec2 c _ _ b hb
abbrev XV7 : (c : Dev nD) → (b : Ref sig .tc) → Buf (Elt F) ((c : Thread nD τ).loc b) := fun c b => X7 m ρ c b
abbrev XW7 := [arrRef spec2 2] ++ XW6
theorem X7_kept (h : b ∉ XW7) : X7 m ρ c b = X0 m ρ c b :=
  kept_step (withArrays_keeps c b cfg2 launch2.win.arr_inj _ _ (A_eq2 _ c) 2 (by decide)) (X6_kept m ρ c b) h

abbrev X8 : Dev nD → Valuation τ sig (Elt F) := fun c => StableHlo.after hostOps3 (X7 m ρ c)
abbrev XV8 : (c : Dev nD) → (b : Ref sig .tc) → Buf (Elt F) ((c : Thread nD τ).loc b) := fun c b => X8 m ρ c b
theorem X8_of (r : Ref sig .tc) (h : r ∉ hostOps3_W) : X8 m ρ c r = X7 m ρ c r :=
  StableHlo.after_of_writes_sub hostOps3 _ hostOps3_writes h
abbrev XW8 := hostOps3_W ++ XW7
theorem X8_kept (h : b ∉ XW8) : X8 m ρ c b = X0 m ρ c b :=
  kept_step (X8_of m ρ c b) (X7_kept m ρ c b) h

def X9 : Valuation τ sig (Elt F) :=
  withArrays spec3 c (X8 m ρ c) fun w => (dat3 (XV8 m ρ) c).arrAt w cfg3.N
theorem X9_arr (w : Fin cfg3.W) : X9 m ρ c (arrRef spec3 w) = (dat3 (XV8 m ρ) c).arrAt w cfg3.N :=
  withArrays_arr spec3 launch3.win.arr_inj c _ _ w
theorem X9_of_ne (hb : ∀ w, arrRef spec3 w ≠ b) : X9 m ρ c b = X8 m ρ c b :=
  withArrays_of_ne spec3 c _ _ b hb
abbrev XV9 : (c : Dev nD) → (b : Ref sig .tc) → Buf (Elt F) ((c : Thread nD τ).loc b) := fun c b => X9 m ρ c b
abbrev XW9 := [arrRef spec3 2] ++ XW8
theorem X9_kept (h : b ∉ XW9) : X9 m ρ c b = X0 m ρ c b :=
  kept_step (withArrays_keeps c b cfg3 launch3.win.arr_inj _ _ (A_eq3 _ c) 2 (by decide)) (X8_kept m ρ c b) h

def X10 : Valuation τ sig (Elt F) :=
  withArrays spec4 c (X9 m ρ c) fun w => (dat4 (XV9 m ρ) c).arrAt w cfg4.N
theorem X10_arr (w : Fin cfg4.W) : X10 m ρ c (arrRef spec4 w) = (dat4 (XV9 m ρ) c).arrAt w cfg4.N :=
  withArrays_arr spec4 launch4.win.arr_inj c _ _ w
theorem X10_of_ne (hb : ∀ w, arrRef spec4 w ≠ b) : X10 m ρ c b = X9 m ρ c b :=
  withArrays_of_ne spec4 c _ _ b hb
abbrev XV10 : (c : Dev nD) → (b : Ref sig .tc) → Buf (Elt F) ((c : Thread nD τ).loc b) := fun c b => X10 m ρ c b
abbrev XW10 := [arrRef spec4 2] ++ XW9
theorem X10_kept (h : b ∉ XW10) : X10 m ρ c b = X0 m ρ c b :=
  kept_step (withArrays_keeps c b cfg4 launch4.win.arr_inj _ _ (A_eq4 _ c) 2 (by decide)) (X9_kept m ρ c b) h

abbrev X11 : Dev nD → Valuation τ sig (Elt F) := fun c => StableHlo.after hostOps5 (X10 m ρ c)
abbrev XV11 : (c : Dev nD) → (b : Ref sig .tc) → Buf (Elt F) ((c : Thread nD τ).loc b) := fun c b => X11 m ρ c b
abbrev XW11 := hostOps5_W ++ XW10
theorem X11_kept (h : b ∉ XW11) : X11 m ρ c b = X0 m ρ c b :=
  kept_step (StableHlo.after_of_writes_sub hostOps5 _ hostOps5_writes) (X10_kept m ρ c b) h

def X12 : Valuation τ sig (Elt F) :=
  withArrays spec5 c (X11 m ρ c) fun w => (dat5 (XV11 m ρ) c).arrAt w cfg5.N
theorem X12_arr (w : Fin cfg5.W) : X12 m ρ c (arrRef spec5 w) = (dat5 (XV11 m ρ) c).arrAt w cfg5.N :=
  withArrays_arr spec5 launch5.win.arr_inj c _ _ w
abbrev XV12 : (c : Dev nD) → (b : Ref sig .tc) → Buf (Elt F) ((c : Thread nD τ).loc b) := fun c b => X12 m ρ c b
abbrev XW12 := [arrRef spec5 2] ++ XW11
theorem X12_kept (h : b ∉ XW12) : X12 m ρ c b = X0 m ρ c b :=
  kept_step (withArrays_keeps c b cfg5 launch5.win.arr_inj _ _ (A_eq5 _ c) 2 (by decide)) (X11_kept m ρ c b) h

abbrev X13 : Dev nD → Valuation τ sig (Elt F) := fun c => StableHlo.after hostOps6 (X12 m ρ c)
abbrev XV13 : (c : Dev nD) → (b : Ref sig .tc) → Buf (Elt F) ((c : Thread nD τ).loc b) := fun c b => X13 m ρ c b
theorem X13_of (r : Ref sig .tc) (h : r ∉ hostOps6_W) : X13 m ρ c r = X12 m ρ c r :=
  StableHlo.after_of_writes_sub hostOps6 _ hostOps6_writes h
abbrev XW13 := hostOps6_W ++ XW12
theorem X13_kept (h : b ∉ XW13) : X13 m ρ c b = X0 m ρ c b :=
  kept_step (X13_of m ρ c b) (X12_kept m ρ c b) h

def X14 : Valuation τ sig (Elt F) :=
  withArrays spec6 c (X13 m ρ c) fun w => (dat6 (XV13 m ρ) c).arrAt w cfg6.N
theorem X14_arr (w : Fin cfg6.W) : X14 m ρ c (arrRef spec6 w) = (dat6 (XV13 m ρ) c).arrAt w cfg6.N :=
  withArrays_arr spec6 launch6.win.arr_inj c _ _ w
abbrev XV14 : (c : Dev nD) → (b : Ref sig .tc) → Buf (Elt F) ((c : Thread nD τ).loc b) := fun c b => X14 m ρ c b
abbrev XW14 := [arrRef spec6 6] ++ XW13
theorem X14_kept (h : b ∉ XW14) : X14 m ρ c b = X0 m ρ c b :=
  kept_step (withArrays_keeps c b cfg6 launch6.win.arr_inj _ _ (A_eq6 _ c) 6 (by decide)) (X13_kept m ρ c b) h

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Frm

end
-- ==== Proof.KIRunRegs.lean ====
import proofs.«404386_j43679817400704_2_alg».proof.Proof.Gen.KernelIdeal.Regions
import proofs.«404386_j43679817400704_2_alg».proof.Proof.KIBodyA
import proofs.«404386_j43679817400704_2_alg».proof.Proof.KIDefs6
import proofs.«404386_j43679817400704_2_alg».proof.Proof.KIRunFold
import Idealize.ShloMosaic.Lib.Pipeline.RegionsLoop

noncomputable section

namespace Cert.KernelIdeal.Frm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 7) → (c : Dev nD) → Dat τ (Elt F) Unit ℕ (UR sig nD τ) ℕ (Pipeline.pin (pcfgs (F := F)) adm p) c
  | ⟨0, _⟩ => fun c => dat0 (XV3 m ρ) c
  | ⟨1, _⟩ => fun c => dat1 (XV5 m ρ) c
  | ⟨2, _⟩ => fun c => dat2 (XV6 m ρ) c
  | ⟨3, _⟩ => fun c => dat3 (XV8 m ρ) c
  | ⟨4, _⟩ => fun c => dat4 (XV9 m ρ) c
  | ⟨5, _⟩ => fun c => dat5 (XV11 m ρ) c
  | ⟨6, _⟩ => fun c => dat6 (XV13 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev Tₙ (c : Dev nD) : sProp 𝕄 := iprop(StableHlo.held (c : Thread nD τ) (Pipeline.ucRefs τ sig) (X14 m ρ c) ∗ ∃ r, prngReg c r)

-- Every call's proof data holds its inputs at the full share, owes nothing, bounds no recorded pair, and starts from the plain invariant.
theorem plain (p : Fin 7) (c : Dev nD) : (∀ w, (pdats m ρ p c).q w = fullShare) ∧ (∀ t, (pdats m ρ p c).owed t = 0)
    ∧ (pdats m ρ p c).recorded 0 = Set.univ ∧ (pdats m ρ p c).Φ 0 = Pipeline.ΦA (cfgs p).spec c := by
  fin_cases p <;> exact ⟨fun _ => rfl, fun _ => rfl, rfl, rfl⟩

-- A call entered from every unscoped buffer at V and left at V': its arrays are split out and put back, the rest rides along.
def reg {p : Fin 7} (lf : Pipeline.LaunchFacts (nD := nD) (τ := τ) cfgs p) (V : Dev nD → Valuation τ sig (Elt F))
    {post : Dev nD → sProp 𝕄}
    (hb : ∀ c, BodyObligation (pdats m ρ p c) (defs₀ (F := F)) Variants.none () Set.univ)
    (hA : ∀ c w, (pdats m ρ p c).A w = V c (Pipeline.arrRef (cfgs p).spec w))
    (hΦ : ∀ c, (pdats m ρ p c).Φ (Fin.last _) ⊢ (Pipeline.ΦA (cfgs p).spec c : sProp 𝕄))
    (hpost : ∀ c : Dev nD, iprop(StableHlo.held (c : Thread nD τ) (Pipeline.ucRefs τ sig)
      (Pipeline.withArrays (cfgs p).spec c (V c) fun w => (pdats m ρ p c).arrAt w (cfgs p).N) ∗ R c) ⊢ post c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (plain m ρ p c).2.1
  pre c := iprop(StableHlo.held (c : Thread nD τ) (Pipeline.ucRefs τ sig) (V c) ∗ R c)
  post := post
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    have hsplit := Pipeline.arrays_of_unscopedBufs (p := p) (pcfgs (F := F)) adm (pdats m ρ) lf.win lf.arr_whole c
      ((pdats m ρ p c).share_full (plain m ρ p c).1) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [(plain m ρ p c).2.1]
      icases HO with ⟨%W, HO⟩; iexists W; isplitr; · ipureintro; exact fun _ _ => Or.inl ((plain m ρ p c).2.2.1 ▸ trivial)
      iexact HO
    isplitl [Hp]; · iexact Hp
    iexact Hrest
  hin c := by
    rw [(plain m ρ p c).2.2.2]; unfold Pipeline.ΦA
    iintro ⟨Hp, -, Hr⟩
    isplitl [Hr]; · iexact Hr
    iexact Hp
  hout c := by
    rw [Pipeline.ownSems0_none]; refine (hΦ c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (plain m ρ p c).1)
      (fun b => V c b) (fun b => (Pipeline.withArrays (cfgs p).spec c (V c) fun w => (pdats m ρ p c).arrAt w (cfgs p).N) b) _
      (fun w => (Pipeline.withArrays_arr _ lf.win.arr_inj c _ _ w).symm) fun b => withArrays_rest c b _ _ _
    rw [Pipeline.unscopedBufs_held] at hjoin
    iintro ⟨Ha, HO, HY, Hrest⟩
    imodintro
    iapply hpost
    isplitl [Ha Hrest]
    · iapply hjoin; isplitl [Ha] <;> iassumption
    isplitl [HY]; · iexact HY
    unfold Pipeline.Dat.owesAt Pipeline.owesWithin; rw [(plain m ρ p c).2.1]
    icases HO with ⟨%W, -, HO⟩; iexists W; iexact HO

def reg0 :=
  reg m ρ launch0 (X3 m ρ) (body_obligation0 _) (fun _ _ => rfl) (fun _ => .rfl) fun _ => .rfl

def reg1 :=
  reg m ρ launch1 (X5 m ρ) (body_obligation1 _) (fun _ _ => rfl) (fun _ => .rfl) fun _ => .rfl

def reg2 :=
  reg m ρ launch2 (X6 m ρ) (body_obligation2 _) (fun _ _ => rfl) (fun _ => .rfl) fun _ => .rfl

def reg3 :=
  reg m ρ launch3 (X8 m ρ) (body_obligation3 _) (fun _ _ => rfl) (fun _ => .rfl) fun _ => .rfl

def reg4 :=
  reg m ρ launch4 (X9 m ρ) (body_obligation4 _) (fun _ _ => rfl) (fun _ => .rfl) fun _ => .rfl

def reg5 :=
  reg m ρ launch5 (X11 m ρ) (body_obligation5 _) (fun _ _ => rfl) (fun _ => .rfl) fun _ => .rfl

def reg6 :=
  reg m ρ launch6 (X13 m ρ) (body_obligation6 _) (fun _ _ => rfl) (Φ6_last _)
    (post := fun c => iprop(Tₙ m ρ c ∗ ∃ W, owes (c : Thread nD τ) (0 : CellTallies nD τ sig Unit) W)) fun _ => sep_assoc.2

end Cert.KernelIdeal.Frm

end
-- ==== Proof.KIRun.lean ====
import proofs.«404386_j43679817400704_2_alg».proof.Proof.Gen.KernelIdeal.Launch
import proofs.«404386_j43679817400704_2_alg».proof.Proof.Gen.KernelIdeal.Skeleton
import proofs.«404386_j43679817400704_2_alg».proof.Proof.Gen.KernelIdeal.Points
import proofs.«404386_j43679817400704_2_alg».proof.Proof.Gen.KernelIdeal.Regions
import proofs.«404386_j43679817400704_2_alg».proof.Proof.KIBodyA
import proofs.«404386_j43679817400704_2_alg».proof.Proof.KIDefs6
import proofs.«404386_j43679817400704_2_alg».proof.Proof.KIRunFold
import proofs.«404386_j43679817400704_2_alg».proof.Proof.KIRunRegs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [
    .host (hseg hostOps0 hostOps0_sub hostOps0_fresh (X0 m ρ)),
    .host (hseg hostOps0_1 hostOps0_1_sub hostOps0_1_fresh (X1 m ρ)),
    .host (hseg hostOps0_2 hostOps0_2_sub hostOps0_2_fresh (X2 m ρ)),
    .region (reg0 m ρ),
    .host (hseg hostOps1 hostOps1_sub hostOps1_fresh (X4 m ρ)),
    .region (reg1 m ρ),
    .region (reg2 m ρ),
    .host (hseg hostOps3 hostOps3_sub hostOps3_fresh (X7 m ρ)),
    .region (reg3 m ρ),
    .region (reg4 m ρ),
    .host (hseg hostOps5 hostOps5_sub hostOps5_fresh (X10 m ρ)),
    .region (reg5 m ρ),
    .host (hseg hostOps6 hostOps6_sub hostOps6_fresh (X12 m ρ)),
    .region (reg6 m ρ) ]

theorem main_run (c : Dev nD) : main (F := F) c = Pipeline.Seg.run (segs m ρ) := by
  rewrite [main_chain c, Pipeline.Seg.run_eq_chain]
  rfl

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = X14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (X0 m ρ c)
        from Pipeline.unscopedBufs_held c (X0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X14 m ρ c b)
    (hfin := fun c s' => by
      iintro ⟨⟨Hh, -⟩, HSI⟩
      unfold StableHlo.held
      imodintro
      iapply (pointsTo_read_all (Pipeline.ucRefs τ sig) (fun b => (((c : Thread nD τ)).1, b)) (X14 m ρ c) s')
      isplitl [Hh] <;> iassumption)
    (hQ := fun s h => h)

abbrev argRefs : List (Ref sig .tc) :=
  [main_arg0, main_arg1, main_arg2, main_arg3, main_arg4, main_arg5, main_arg6, main_arg7, main_arg8, main_arg9, main_arg10, main_arg11, main_arg12]

-- An argument's buffer is unscoped and no item writes it, so a memory at the last boundary's contents has it as launched.
theorem args_kept (μ : (ℓ : Loc nD τ sig) → Buf (Elt F) ℓ) (c : Dev nD)
    (h : ∀ b ∈ Pipeline.ucRefs τ sig, μ (((c : Thread nD τ)).1, b) = X14 m ρ c b) :
    argRefs.Forall fun b => μ ((c.tc : Thread nD τ).loc b) = m ((c.tc : Thread nD τ).loc b) :=
  List.forall_iff_forall_mem.mpr fun b hb =>
    (h _ (mem_uc b ((by decide : ∀ b ∈ argRefs, ¬ (Proc.devRef .tc b : DevRef τ sig).isScoped) b hb))).trans
      (X14_kept m ρ c b ((by decide : ∀ b ∈ argRefs, b ∉ XW14) b hb))

theorem frame : θ_run defs (onTc (τ := τ) (main (F := F))) ⟨m, fun _ => 0, ρ⟩ (fun r => ∀ c : Dev nD,
      argRefs.Forall fun b => r.2.mem ((c.tc : Thread nD τ).loc b) = m ((c.tc : Thread nD τ).loc b)) :=
  (θ_run defs _ _).mono (fun r h c => args_kept m ρ r.2.mem c (h c)) (run_all m ρ)

end Cert.KernelIdeal.Frm

end
-- ==== Proof.KISpec.lean ====
import proofs.«404386_j43679817400704_2_alg».proof.ReferenceIdeal
import proofs.«404386_j43679817400704_2_alg».proof.Proof.Gen.ReferenceIdeal
import Idealize.ShloMosaic.PureOps.Ideal

noncomputable section

namespace Cert.Spec

open Idealize.ShloMosaic Cert.ReferenceIdeal Cert.ReferenceIdeal.Facts₀ Cert.ReferenceIdeal.Facts

variable {F : FTy → Type} [FloatOps F]

def proj0 (x : FVec F S50000x4 .f32) (w : FVec F S4x64 .f32) : FVec F S50000x64 .f32 :=
  Host.dotGeneral dot_S50000x4_S4x64_S50000x64_1_0_0_1_n_n none x w

def proj (h : FVec F S50000x64 .f32) (w : FVec F S64x64 .f32) : FVec F S50000x64 .f32 :=
  Host.dotGeneral dot_S50000x64_S64x64_S50000x64_1_0_0_1_n_n none h w

def bias (a : FVec F S50000x64 .f32) (b : FVec F S1x64 .f32) : FVec F S50000x64 .f32 :=
  addf a (broadcastInDim S50000x64 ![0, 1] bcast_S1x64_S50000x64_0_1 b)

def biasRelu (a : FVec F S50000x64 .f32) (b : FVec F S1x64 .f32) : FVec F S50000x64 .f32 :=
  maximumf (bias a b) (broadcastInDim S50000x64 ![] bcast_S_S50000x64 (constant S_ .f32 0x00000000#32))

def poolSum (h : FVec F S50000x64 .f32) (g : IVec S50000x1 32) : FVec F S64x64 .f32 :=
  Host.scatterAdd scatter_S64x64_S50000x1_S50000x64_1_0_0_1
    (broadcastInDim S64x64 ![] bcast_S_S64x64 (constant S_ .f32 0x00000000#32)) g h

def poolCnt (g : IVec S50000x1 32) : FVec F S64 .f32 :=
  Host.scatterAdd scatter_S64_S50000x1_S50000_n_0_0_1
    (broadcastInDim S64 ![] bcast_S_S64 (constant S_ .f32 0x00000000#32)) g
    (broadcastInDim S50000 ![] bcast_S_S50000 (constant S_ .f32 0x3F800000#32))

def poolMean (h : FVec F S50000x64 .f32) (g : IVec S50000x1 32) : FVec F S64x64 .f32 :=
  Host.divf (poolSum h g)
    (broadcastInDim S64x64 ![0, 1] bcast_S64x1_S64x64_0_1
      (broadcastInDim S64x1 ![0] bcast_S64_S64x1_0
        (maximumf (poolCnt (F := F) g) (broadcastInDim S64 ![] bcast_S_S64 (constant S_ .f32 0x3F800000#32)))))

def head (mean : FVec F S64x64 .f32) (wpre : FVec F S64x32 .f32) (bpre : FVec F S1x32 .f32)
    (wlin : FVec F S32x4 .f32) (blin : FVec F S1x4 .f32) : FVec F S64x4 .f32 :=
  addf (Host.dotGeneral dot_S64x32_S32x4_S64x4_1_0_0_1_n_n none
      (addf (Host.dotGeneral dot_S64x64_S64x32_S64x32_1_0_0_1_n_n none mean wpre)
        (broadcastInDim S64x32 ![0, 1] bcast_S1x32_S64x32_0_1 bpre)) wlin)
    (broadcastInDim S64x4 ![0, 1] bcast_S1x4_S64x4_0_1 blin)

def poolHead (h : FVec F S50000x64 .f32) (g : IVec S50000x1 32) (wpre : FVec F S64x32 .f32) (bpre : FVec F S1x32 .f32)
    (wlin : FVec F S32x4 .f32) (blin : FVec F S1x4 .f32) : FVec F S64x4 .f32 :=
  head (poolMean h g) wpre bpre wlin blin

end Cert.Spec

end
-- ==== Proof.KIValA.lean ====
import proofs.«404386_j43679817400704_2_alg».proof.Proof.KISpec
import proofs.«404386_j43679817400704_2_alg».proof.Proof.KIDefs
import Idealize.ShloMosaic.Lib.Pipeline.Value
import Idealize.ShloMosaic.Lib.StackMember
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem Idealize.ShloMosaic.ValueIdx Idealize.ShloMosaic.StackMember
open Idealize.ShloMosaic.Pipeline (Dat)
open Cert.KernelIdeal Cert.KernelIdeal.Gen Cert.KernelIdeal.Frm

variable (V : (c : Dev nD) → (b : Ref sig .tc) → Buf (Elt Ideal) ((c : Thread nD τ).loc b))

theorem hz : (![0, 0] : Fin 2 → Nat) = fun _ => 0 := funext fun a => by fin_cases a <;> rfl

/-- `f` makes row `r` of its result from row `r` of its first argument and the whole of its second, as `φ` says. -/
def RowLocal {M C : Nat} {S : Shape} (φ : (Fin C → EReal) → (S.Idx → EReal) → Fin 64 → EReal)
    (f : ((⟨2, ![M, C]⟩ : Shape).Idx → EReal) → (S.Idx → EReal) → (⟨2, ![M, 64]⟩ : Shape).Idx → EReal) : Prop :=
  ∀ A W r q, f A W (ix2 r q) = φ (fun k => A (ix2 r k)) W q

/-- Where an element of a block sits in its array, from the block index on each axis. -/
theorem blk_emb {M N m n : Nat} {E : (⟨2, ![m, n]⟩ : Shape).Idx → (⟨2, ![M, N]⟩ : Shape).Idx} {ix : Fin 2 → Nat}
    (hE : ∀ y a, ((E y a : Fin _) : Nat) = ix a * (![m, n] : Fin 2 → Nat) a + (y a : Nat)) {o : Nat} (h0 : ix 0 = o) (h1 : ix 1 = 0)
    (p : Fin m) (q : Fin n) (r : Fin M) (c : Fin N) (hr : r.val = o * m + p.val) (hc : c.val = q.val) : E (ix2 p q) = ix2 r c := by
  funext a; apply Fin.ext; rw [hE]
  match a with
  | ⟨0, _⟩ => show ix 0 * m + p.val = r.val; rw [h0, hr]
  | ⟨1, _⟩ => show ix 1 * n + q.val = c.val; rw [h1, hc, Nat.zero_mul, Nat.zero_add]

/-- A row-local function of row block `t` of `A` and all of `W` is row block `t` of that function of `A` and `W`. -/
theorem rowLocal_block {C a b : Nat} {φ : (Fin C → EReal) → ((⟨2, ![a, b]⟩ : Shape).Idx → EReal) → Fin 64 → EReal} {pay G}
    (hp : RowLocal (M := 10000) φ pay) (hG : RowLocal (M := 50000) φ G) {t : Nat} (ht : t < 5) {i0 i1 i2 : Fin 2 → Nat}
    (hi : i0 0 = t ∧ i0 1 = 0 ∧ i1 0 = 0 ∧ i1 1 = 0 ∧ i2 0 = t ∧ i2 1 = 0)
    {E0 : (⟨2, ![10000, C]⟩ : Shape).Idx → (⟨2, ![50000, C]⟩ : Shape).Idx} {E1 : (⟨2, ![a, b]⟩ : Shape).Idx → (⟨2, ![a, b]⟩ : Shape).Idx}
    {E2 : (⟨2, ![10000, 64]⟩ : Shape).Idx → (⟨2, ![50000, 64]⟩ : Shape).Idx}
    (h0 : ∀ y a, ((E0 y a : Fin _) : Nat) = i0 a * (![10000, C] : Fin 2 → Nat) a + (y a : Nat))
    (h1 : ∀ y a', ((E1 y a' : Fin _) : Nat) = i1 a' * (![a, b] : Fin 2 → Nat) a' + (y a' : Nat))
    (h2 : ∀ y a, ((E2 y a : Fin _) : Nat) = i2 a * (![10000, 64] : Fin 2 → Nat) a + (y a : Nat))
    (X0 X1 A W) (hX0 : ∀ y, X0 y = A (E0 y)) (hX1 : ∀ y, X1 y = W (E1 y)) (j) : pay X0 X1 j = G A W (E2 j) := by
  obtain rfl : X0 = fun y => A (E0 y) := funext hX0
  obtain rfl : X1 = fun y => W (E1 y) := funext hX1
  obtain ⟨e00, e01, e10, e11, e20, e21⟩ := hi
  obtain ⟨p, q, rfl⟩ : ∃ (p : Fin 10000) (q : Fin 64), j = ix2 p q := ⟨j 0, j 1, eq_ix2 j⟩
  have hr : t * 10000 + p.val < 50000 := by omega
  rw [hp, blk_emb h2 e20 e21 p q ⟨t * 10000 + p.val, hr⟩ q rfl rfl, hG]
  congr 1
  · funext k; exact congrArg A (blk_emb h0 e00 e01 p k ⟨_, hr⟩ k rfl rfl)
  · funext y
    obtain ⟨u, v, rfl⟩ : ∃ (u : Fin a) (v : Fin b), y = ix2 u v := ⟨y 0, y 1, eq_ix2 y⟩
    exact congrArg W (blk_emb h1 e10 e11 u v u v (by rw [Nat.zero_mul, Nat.zero_add]) rfl)

/-- Every row `r` lies in row block `r / 10000`, one of the five. -/
theorem rows_cover {N : Nat} (hN : N = 5) {ix : Fin N → Fin 2 → Nat} (h : ∀ t, ix t 0 = t.val ∧ ix t 1 = 0)
    {fl : Fin N → Bool} (hfl : ∀ t, fl t = true) {B : Fin N → Finset (⟨2, ![50000, 64]⟩ : Shape).Idx}
    (hB : ∀ t i, (∀ a : Fin 2, ix t a * (![10000, 64] : Fin 2 → Nat) a ≤ (i a).val
      ∧ (i a).val < ix t a * (![10000, 64] : Fin 2 → Nat) a + (![10000, 64] : Fin 2 → Nat) a) → i ∈ B t)
    (i : (⟨2, ![50000, 64]⟩ : Shape).Idx) : ∃ t, fl t = true ∧ i ∈ B t := by
  subst hN
  have hi0 := idx2_lt0 i
  have hi1 := idx2_lt1 i
  obtain ⟨e0, e1⟩ := h ⟨(i 0).val / 10000, by omega⟩
  refine ⟨⟨(i 0).val / 10000, by omega⟩, hfl _, hB _ i fun a => ?_⟩
  match a with
  | ⟨0, _⟩ => show ix _ 0 * 10000 ≤ (i 0).val ∧ (i 0).val < ix _ 0 * 10000 + 10000; rw [e0]; show (i 0).val / 10000 * 10000 ≤ _ ∧ _ < (i 0).val / 10000 * 10000 + 10000; omega
  | ⟨1, _⟩ => show ix _ 1 * 64 ≤ (i 1).val ∧ (i 1).val < ix _ 1 * 64 + 64; rw [e1]; omega

/-- An index within a rectangle's bounds on every axis is in that slice of a whole array. -/
theorem mem_slice_whole (b : Ref sig .tc) {off sz : Fin b.ty.shape.rank → Nat} {inb} {i : b.ty.shape.Idx}
    (h : ∀ a, off a ≤ (i a).val ∧ (i a).val < off a + sz a) : i ∈ ((View.whole b).slice (Rect.unit off sz inb)).set := by
  rw [View.set_slice_whole]; exact Rect.mem_set_unit.mpr h

/-- The row-times-matrix sum of a product's entry. -/
abbrev mmφ (C : Nat) : (Fin C → EReal) → ((⟨2, ![C, 64]⟩ : Shape).Idx → EReal) → Fin 64 → EReal :=
  fun x W q => ∑ k : Fin C, x k * W (ix2 k q)

/-- A product added to zero is, entry by entry, the sum over the contracted coordinate. -/
theorem mm_at {m k n : Nat} (A : FVec Ideal ⟨2, ![m, k]⟩ .f32) (B : FVec Ideal ⟨2, ![k, n]⟩ .f32) (p : Fin m) (q : Fin n) :
    matmul (DotDims.plain m k n) none (truncf .bf16 A bitsLt_bf16_f32) (truncf .bf16 B bitsLt_bf16_f32) (constant (F := Ideal) _ .f32 0x00000000#32) (ix2 p q)
      = ∑ c : Fin k, A (ix2 p c) * B (ix2 c q) :=
  (Ideal.matmul_constant_zero_apply _ none _ _ _).trans ((Ideal.dotGeneral_apply _ none .single _ _ _).symm.trans (dotGeneral_plain_apply none _ _ p q))

theorem pay0_local : RowLocal (mmφ 4) (k0_pay1 (F := Ideal)) := fun A W r q => mm_at A W r q
theorem pay2_local : RowLocal (mmφ 64) (k2_pay1 (F := Ideal)) := fun A W r q =>
  (mm_at (shapeCast S10000x64 A shapeCasts_S10000x64_S10000x64) W r q).trans (by rw [shapeCast_self])
theorem pay4_local : RowLocal (mmφ 64) (k4_pay1 (F := Ideal)) := pay2_local
theorem proj0_local : RowLocal (mmφ 4) (Cert.Spec.proj0 (F := Ideal)) := fun X W r q => dotGeneral_plain_apply none X W r q
theorem proj_local : RowLocal (mmφ 64) (Cert.Spec.proj (F := Ideal)) := fun X W r q => dotGeneral_plain_apply none X W r q

/-- The six calls have the same index maps, so the facts are decided once, at the first. -/
theorem idx : ∀ t : Fin grid0.N, win0_0.index t 0 = t.val ∧ win0_0.index t 1 = 0 ∧ win0_1.index t 0 = 0 ∧ win0_1.index t 1 = 0
    ∧ win0_2.index t 0 = t.val ∧ win0_2.index t 1 = 0 := by decide +kernel

theorem final0 (c : Dev nD) : (dat0 V c).arrAt 2 cfg0.N = Cert.Spec.proj0 (F := Ideal) (V c main_arg0) (V c main_arg3) :=
  (dat0 V c).arrAt_eq_of_cover 2 _ (fun t _ => by
      show (cfg0.win 2).cut (grid0.coords t) ((dat0 V c).after 2 t) = _
      rw [after0_2, out0_2, View.canon_unit_zero hz]
      simp only [View.ld_unit_zero (S := S10000x4) hz, View.ld_unit_zero (S := S4x64) hz]
      exact funext (rowLocal_block pay0_local proj0_local (N_0 ▸ t.isLt) (idx t) (win0_0.rect_emb_val t) (win0_1.rect_emb_val t)
        (win0_2.rect_emb_val t) _ _ (V c main_arg0) (V c main_arg3) (fun _ => rfl) (fun _ => rfl)))
    (rows_cover N_0 (fun t => (idx t).2.2.2.2) flush0_2 fun t i h => mem_slice_whole main_v32 h)

theorem final2 (c : Dev nD) : (dat2 V c).arrAt 2 cfg2.N = Cert.Spec.proj (F := Ideal) (V c main_v47) (V c main_arg5) :=
  (dat2 V c).arrAt_eq_of_cover 2 _ (fun t _ => by
      show (cfg2.win 2).cut (grid2.coords t) ((dat2 V c).after 2 t) = _
      rw [after2_2, out2_2, View.canon_unit_zero hz]
      simp only [View.ld_unit_zero (S := S10000x64) hz, View.ld_unit_zero (S := S64x64) hz]
      exact funext (rowLocal_block pay2_local proj_local (N_2 ▸ t.isLt) (idx t) (win2_0.rect_emb_val t) (win2_1.rect_emb_val t)
        (win2_2.rect_emb_val t) _ _ (V c main_v47) (V c main_arg5) (fun _ => rfl) (fun _ => rfl)))
    (rows_cover N_2 (fun t => (idx t).2.2.2.2) flush2_2 fun t i h => mem_slice_whole main_v48 h)

theorem final4 (c : Dev nD) : (dat4 V c).arrAt 2 cfg4.N = Cert.Spec.proj (F := Ideal) (V c main_v63) (V c main_arg7) :=
  (dat4 V c).arrAt_eq_of_cover 2 _ (fun t _ => by
      show (cfg4.win 2).cut (grid4.coords t) ((dat4 V c).after 2 t) = _
      rw [after4_2, out4_2, View.canon_unit_zero hz]
      simp only [View.ld_unit_zero (S := S10000x64) hz, View.ld_unit_zero (S := S64x64) hz]
      exact funext (rowLocal_block pay4_local proj_local (N_4 ▸ t.isLt) (idx t) (win4_0.rect_emb_val t) (win4_1.rect_emb_val t)
        (win4_2.rect_emb_val t) _ _ (V c main_v63) (V c main_arg7) (fun _ => rfl) (fun _ => rfl)))
    (rows_cover N_4 (fun t => (idx t).2.2.2.2) flush4_2 fun t i h => mem_slice_whole main_v64 h)

end Cert.KernelIdeal.Val

end
-- ==== Proof.KIValB.lean ====
import proofs.«404386_j43679817400704_2_alg».proof.Proof.KIValA
import Idealize.ShloMosaic.Lib.ValueLayout

set_option maxRecDepth 16384

noncomputable section

namespace Cert.KernelIdeal.Val

open Idealize.ShloMosaic Idealize.ShloMosaic.TcCoe Idealize.SL.Sem Idealize.ShloMosaic.ValueIdx Idealize.ShloMosaic.StackMember
open Idealize.ShloMosaic.Pipeline (Dat)
open Cert.KernelIdeal Cert.KernelIdeal.Gen Cert.KernelIdeal.Frm

variable (V : (c : Dev nD) → (b : Ref sig .tc) → Buf (Elt Ideal) ((c : Thread nD τ).loc b))

/-- A row plus the bias row, and the same clamped below at zero. -/
abbrev biasφ : (Fin 64 → EReal) → ((⟨2, ![1, 64]⟩ : Shape).Idx → EReal) → Fin 64 → EReal := fun x b q => x q + b (ix2 (0 : Fin 1) q)
abbrev reluφ : (Fin 64 → EReal) → ((⟨2, ![1, 64]⟩ : Shape).Idx → EReal) → Fin 64 → EReal := fun x b q => max (biasφ x b q) 0

theorem bias_local : RowLocal biasφ (Cert.Spec.bias (F := Ideal)) := fun a b r q => by
  unfold Cert.Spec.bias
  rw [addf_apply, broadcastInDim_apply _ _ b (ix2 r q) (ix2 (0 : Fin 1) q) (fun a => by match a with | ⟨0, _⟩ => rfl | ⟨1, _⟩ => rfl)]

theorem biasRelu_local : RowLocal reluφ (Cert.Spec.biasRelu (F := Ideal)) := fun a b r q => by
  unfold Cert.Spec.biasRelu
  rw [maximumf_apply, bias_local, broadcastInDim_apply _ _ (constant (F := Ideal) S_ .f32 0x00000000#32) (ix2 r q) ix0 (fun a => a.elim0),
    constant_apply, Ideal.ofBits_zero_f32]

theorem pay5_local : RowLocal biasφ (k5_pay1 (F := Ideal)) := fun (x0 : FVec Ideal S10000x64 .f32) (x1 : FVec Ideal S1x64 .f32) r q => by
  show addf (shapeCast S10000x64 x0 _) (broadcastTo S10000x64 (shapeCast S1x64 x1 _) _) (ix2 r q) = _
  rw [addf_apply, shapeCast_self, shapeCast_self, broadcastTo_1b_ab_apply]

theorem pay1_local : RowLocal reluφ (k1_pay1 (F := Ideal)) := fun x0 x1 r q => by
  show max (k5_pay1 (F := Ideal) x0 x1 (ix2 r q)) (Ideal.ofBits .f32 0x00000000#32) = _
  rw [pay5_local, Ideal.ofBits_zero_f32]

theorem pay3_local : RowLocal reluφ (k3_pay1 (F := Ideal)) := pay1_local

theorem final1 (c : Dev nD) : (dat1 V c).arrAt 2 cfg1.N = Cert.Spec.biasRelu (F := Ideal) (V c main_v45) (V c main_v46) :=
  (dat1 V c).arrAt_eq_of_cover 2 _ (fun t _ => by
      show (cfg1.win 2).cut (grid1.coords t) ((dat1 V c).after 2 t) = _
      rw [after1_2, out1_2, View.canon_unit_zero hz]
      simp only [View.ld_unit_zero (S := S10000x64) hz, View.ld_unit_zero (S := S1x64) hz]
      exact funext (rowLocal_block pay1_local biasRelu_local (N_1 ▸ t.isLt) (idx t) (win1_0.rect_emb_val t) (win1_1.rect_emb_val t)
        (win1_2.rect_emb_val t) _ _ (V c main_v45) (V c main_v46) (fun _ => rfl) (fun _ => rfl)))
    (rows_cover N_1 (fun t => (idx t).2.2.2.2) flush1_2 fun t i h => mem_slice_whole main_v47 h)

theorem final3 (c : Dev nD) : (dat3 V c).arrAt 2 cfg3.N = Cert.Spec.biasRelu (F := Ideal) (V c main_v61) (V c main_v62) :=
  (dat3 V c).arrAt_eq_of_cover 2 _ (fun t _ => by
      show (cfg3.win 2).cut (grid3.coords t) ((dat3 V c).after 2 t) = _
      rw [after3_2, out3_2, View.canon_unit_zero hz]
      simp only [View.ld_unit_zero (S := S10000x64) hz, View.ld_unit_zero (S := S1x64) hz]
      exact funext (rowLocal_block pay3_local biasRelu_local (N_3 ▸ t.isLt) (idx t) (win3_0.rect_emb_val t) (win3_1.rect_emb_val t)
        (win3_2.rect_emb_val t) _ _ (V c main_v61) (V c main_v62) (fun _ => rfl) (fun _ => rfl)))
    (rows_cover N_3 (fun t => (idx t).2.2.2.2) flush3_2 fun t i h => mem_slice_whole main_v63 h)

theorem final5 (c : Dev nD) : (dat5 V c).arrAt 2 cfg5.N = Cert.Spec.bias (F := Ideal) (V c main_v77) (V c main_v78) :=
  (dat5 V c).arrAt_eq_of_cover 2 _ (fun t _ => by
      show (cfg5.win 2).cut (grid5.coords t) ((dat5 V c).after 2 t) = _
      rw [after5_2, out5_2, View.canon_unit_zero hz]
      simp only [View.ld_unit_zero (S := S10000x64) hz, View.ld_unit_zero (S := S1x64) hz]
      exact funext (rowLocal_block pay5_local bias_local (N_5 ▸ t.isLt) (idx t) (win5_0.rect_emb_val t) (win5_1.rect_emb_val t)
        (win5_2.rect_emb_val t) _ _ (V c main_v77) (V c main_v78) (fun _ => rfl) (fun _ => rfl)))
    (rows_cover N_5 (fun t => (idx t).2.2.2.2) flush5_2 fun t i h => mem_slice_whole main_v79 h)

end Cert.KernelIdeal.Val

end
-- ==== Proof.LibBroadcastColumn.lean ====
import Idealize.ShloMosaic.Lib.Pipeline.Value
import Idealize.ShloMosaic.Lib.ValueIdx

namespace Idealize.ShloMosaic.ValueIdx

variable {α : Type}

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KIVal6M.lean ====
import proofs.«404386_j43679817400704_2_alg».proof.Proof.Gen.KernelIdeal.Skeleton
import proofs.«404386_j43679817400704_2_alg».proof.Proof.LibBroadcastColumn
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.Lib.StableHlo.Predicate
import Idealize.ShloMosaic.PureOps.Ideal.Laws

set_option maxRecDepth 16384

noncomputable section

open scoped BigOperators

namespace Cert.KernelIdeal.Val

open Idealize.ShloMosaic Idealize.ShloMosaic.ValueIdx
open Cert.KernelIdeal Cert.KernelIdeal.Gen

theorem onehot_word (a : BitVec 32) (g : ℕ) (hg : g < 64) :
    (FloatOps.sitofp .f32 ((IntOp.cmpi .eq a (BitVec.ofNat 32 g)).setWidth 32) : Ideal .f32)
      = if a.toInt = (g : ℤ) then 1 else 0 := by
  show (((((IntOp.cmpi .eq a (BitVec.ofNat 32 g)).setWidth 32).toInt : ℤ) : ℝ) : EReal) = _
  rw [toInt_setWidth_bit]
  have hgi : (BitVec.ofNat 32 g).toInt = (g : ℤ) := StableHlo.Predicate.toInt_ofNat_small g (by omega)
  by_cases h : a = BitVec.ofNat 32 g
  · rw [StableHlo.Predicate.cmpi_eq_iff.mpr h, if_pos (by rw [h, hgi])]
    simp
  · have hc : IntOp.cmpi .eq a (BitVec.ofNat 32 g) = 0#1 :=
      eq_zero_of_ne_one fun hc => h (StableHlo.Predicate.cmpi_eq_iff.mp hc)
    rw [hc, if_neg fun ht => h (BitVec.eq_of_toInt_eq (ht.trans hgi.symm))]
    simp

theorem onehot_apply (ib : IVec S10000x1 32) (r : Fin 10000) (g : Fin 64) :
    k6_pay3 (F := Ideal) ib (ix2 r g) = if (ib (ix2 r (0 : Fin 1))).toInt = (g.val : ℤ) then 1 else 0 := by
  unfold k6_pay3
  show FloatOps.sitofp (F := Ideal) .f32 ((IntOp.cmpi .eq (broadcastTo S10000x64 (shapeCast S10000x1 ib _) _ (ix2 r g))
      (iota .tc S10000x64 32 [1] _ (ix2 r g))).setWidth 32) = _
  rw [broadcastTo_a1_ab_apply, shapeCast_self, iota_single_apply]
  exact onehot_word _ g.val g.isLt

-- The dimension numbers of a product that contracts the first axis of both operands.
abbrev dotT {K M N : ℕ} (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

-- Into a zero accumulator such a product, read at an index, sums the operands' products over the shared first axis.
theorem dotT_apply {K M N : ℕ} {φ₁ φ₂ : FTy} (wf : DotDims.WF ⟨2, ![K, M]⟩ ⟨2, ![K, N]⟩ ⟨2, ![M, N]⟩ [0] [0] [1] [1] [] [])
    (a : FVec Ideal ⟨2, ![K, M]⟩ φ₁) (b : FVec Ideal ⟨2, ![K, N]⟩ φ₂) (g : Fin M) (j : Fin N) :
    matmul (dotT wf) none a b (constant (F := Ideal) ⟨2, ![M, N]⟩ .f32 0x00000000#32) (ix2 g j)
      = ∑ r : Fin K, a (ix2 r g) * b (ix2 r j) := by
  simp only [matmul]
  rw [Ideal.matmul_constant_zero_apply, ← Equiv.sum_comp (contrEquiv1 (dotT wf) K rfl rfl).symm]
  refine Finset.sum_congr rfl fun k _ => ?_
  have hk := contrEquiv1_symm_val (dotT wf) K rfl rfl k
  have l1 : ∀ i q, ((dotT wf).lhsIdx i q 1).val = (i 0).val := fun i q => by
    unfold DotDims.lhsIdx
    rw [dif_neg (show ¬(1 : Fin 2) ∈ (dotT wf).lhsBatch from List.not_mem_nil), dif_pos (show (1 : Fin 2) ∈ (dotT wf).lhsNonContracting from List.mem_singleton.mpr rfl)]
    rfl
  have r1 : ∀ i q, ((dotT wf).rhsIdx i q 1).val = (i 1).val := fun i q => by
    unfold DotDims.rhsIdx
    rw [dif_neg (show ¬(1 : Fin 2) ∈ (dotT wf).rhsBatch from List.not_mem_nil), dif_pos (show (1 : Fin 2) ∈ (dotT wf).rhsNonContracting from List.mem_singleton.mpr rfl)]
    rfl
  have el : (dotT wf).lhsIdx (ix2 g j) ((contrEquiv1 (dotT wf) K rfl rfl).symm k) = ix2 k g := funext fun x => Fin.ext (by
    match x with
    | ⟨0, _⟩ => exact ((dotT wf).lhsIdx_val_of_single rfl _ _).trans hk
    | ⟨1, _⟩ => exact l1 _ _)
  have er : (dotT wf).rhsIdx (ix2 g j) ((contrEquiv1 (dotT wf) K rfl rfl).symm k) = ix2 k j := funext fun x => Fin.ext (by
    match x with
    | ⟨0, _⟩ => exact ((dotT wf).rhsIdx_val_of_single rfl _ _).trans hk
    | ⟨1, _⟩ => exact r1 _ _)
  rw [el, er]

theorem matmulS_apply (oh x : FVec Ideal S10000x64 .bf16) (g j : Fin 64) :
    matmul dot_S10000x64_S10000x64_S64x64_0_0_1_1_n_n none oh x (constant (F := Ideal) S64x64 .f32 0x00000000#32) (ix2 g j)
      = ∑ r : Fin 10000, oh (ix2 r g) * x (ix2 r j) :=
  dotT_apply dot_S10000x64_S10000x64_S64x64_0_0_1_1_n_n.wf oh x g j

theorem matmulC_apply (oh : FVec Ideal S10000x64 .bf16) (x : FVec Ideal S10000x1 .bf16) (g : Fin 64) (u : Fin 1) :
    matmul dot_S10000x64_S10000x1_S64x1_0_0_1_1_n_n none oh x (constant (F := Ideal) S64x1 .f32 0x00000000#32) (ix2 g u)
      = ∑ r : Fin 10000, oh (ix2 r g) * x (ix2 r u) :=
  dotT_apply dot_S10000x64_S10000x1_S64x1_0_0_1_1_n_n.wf oh x g u

theorem pay1_apply (g j : Fin 64) : k6_pay1 (F := Ideal) (ix2 g j) = 0 := by
  unfold k6_pay1
  show shapeCast S64x64 (broadcast S64x64 (Scalar.ofBits (F := Ideal) .f32 0x00000000#32)) _ (ix2 g j) = 0
  rw [shapeCast_self, broadcast_apply]
  exact Ideal.ofBits_zero_f32

theorem pay2_apply (g : Fin 64) (u : Fin 1) : k6_pay2 (F := Ideal) (ix2 g u) = 0 := by
  unfold k6_pay2
  show shapeCast S64x1 (broadcast S64x1 (Scalar.ofBits (F := Ideal) .f32 0x00000000#32)) _ (ix2 g u) = 0
  rw [shapeCast_self, broadcast_apply]
  exact Ideal.ofBits_zero_f32

theorem pay4_apply (hb : FVec Ideal S10000x64 .f32) (ib : IVec S10000x1 32) (acc : FVec Ideal S64x64 .f32) (g j : Fin 64) :
    k6_pay4 (F := Ideal) hb ib acc (ix2 g j)
      = acc (ix2 g j) + ∑ r : Fin 10000, if (ib (ix2 r (0 : Fin 1))).toInt = (g.val : ℤ) then hb (ix2 r j) else 0 := by
  unfold k6_pay4
  show shapeCast S64x64 (addf acc (matmul dot_S10000x64_S10000x64_S64x64_0_0_1_1_n_n none (k6_pay3 (F := Ideal) ib)
      (truncf .bf16 (shapeCast S10000x64 hb _) _) (constant (F := Ideal) S64x64 .f32 0x00000000#32))) _ (ix2 g j) = _
  rw [shapeCast_self, addf_apply, matmulS_apply]
  refine congrArg (acc (ix2 g j) + ·) (Finset.sum_congr rfl fun r _ => ?_)
  rw [onehot_apply, truncf_apply, shapeCast_self, ite_mul, one_mul, zero_mul]

theorem pay5_apply (ib : IVec S10000x1 32) (acc : FVec Ideal S64x1 .f32) (g : Fin 64) (u : Fin 1) :
    k6_pay5 (F := Ideal) ib acc (ix2 g u)
      = acc (ix2 g u) + ∑ r : Fin 10000, if (ib (ix2 r (0 : Fin 1))).toInt = (g.val : ℤ) then 1 else 0 := by
  unfold k6_pay5
  show shapeCast S64x1 (addf acc (matmul dot_S10000x64_S10000x1_S64x1_0_0_1_1_n_n none (k6_pay3 (F := Ideal) ib)
      (broadcast S10000x1 (Scalar.ofBits (F := Ideal) .bf16 0x3F80#16)) (constant (F := Ideal) S64x1 .f32 0x00000000#32))) _ (ix2 g u) = _
  rw [shapeCast_self, addf_apply, matmulC_apply]
  refine congrArg (acc (ix2 g u) + ·) (Finset.sum_congr rfl fun r _ => ?_)
  rw [onehot_apply, broadcast_apply]
  show (if _ then (1 : EReal) else 0) * Ideal.ofBits .bf16 0x3F80#16 = _
  rw [Ideal.ofBits_one_bf16, mul_one]

theorem sum_blocks {M : Type} [AddCommMonoid M] (f : Fin 50000 → M) :
    ∑ n : Fin 50000, f n = ∑ t : Fin 5, ∑ r : Fin 10000, f ⟨10000 * t.val + r.val, by have := t.isLt; have := r.isLt; omega⟩ := by
  rw [← Equiv.sum_comp ((finProdFinEquiv (m := 5) (n := 10000)).trans (finCongr (by norm_num))) f, Fintype.sum_prod_type]
  refine Finset.sum_congr rfl fun t _ => Finset.sum_congr rfl fun r _ => congrArg f (Fin.ext ?_)
  show r.val + 10000 * t.val = 10000 * t.val + r.val
  omega

theorem sums_total (h : FVec Ideal S50000x64 .f32) (ids : IVec S50000x1 32)
    (hb : Fin 5 → FVec Ideal S10000x64 .f32) (ib : Fin 5 → IVec S10000x1 32)
    (hhb : ∀ (t : Fin 5) (r : Fin 10000) (j : Fin 64),
      hb t (ix2 r j) = h (ix2 (⟨10000 * t.val + r.val, by have := t.isLt; have := r.isLt; omega⟩ : Fin 50000) j))
    (hib : ∀ (t : Fin 5) (r : Fin 10000),
      ib t (ix2 r (0 : Fin 1)) = ids (ix2 (⟨10000 * t.val + r.val, by have := t.isLt; have := r.isLt; omega⟩ : Fin 50000) (0 : Fin 1)))
    (g j : Fin 64) :
    k6_pay4 (F := Ideal) (hb 4) (ib 4) (k6_pay4 (F := Ideal) (hb 3) (ib 3) (k6_pay4 (F := Ideal) (hb 2) (ib 2)
        (k6_pay4 (F := Ideal) (hb 1) (ib 1) (k6_pay4 (F := Ideal) (hb 0) (ib 0) (k6_pay1 (F := Ideal)))))) (ix2 g j)
      = ∑ n : Fin 50000, if (ids (ix2 n (0 : Fin 1))).toInt = (g.val : ℤ) then h (ix2 n j) else 0 := by
  rw [sum_blocks, Fin.sum_univ_five, pay4_apply, pay4_apply, pay4_apply, pay4_apply, pay4_apply, pay1_apply, zero_add]
  simp only [hhb, hib]

theorem counts_total (ids : IVec S50000x1 32) (ib : Fin 5 → IVec S10000x1 32)
    (hib : ∀ (t : Fin 5) (r : Fin 10000),
      ib t (ix2 r (0 : Fin 1)) = ids (ix2 (⟨10000 * t.val + r.val, by have := t.isLt; have := r.isLt; omega⟩ : Fin 50000) (0 : Fin 1)))
    (g : Fin 64) (u : Fin 1) :
    k6_pay5 (F := Ideal) (ib 4) (k6_pay5 (F := Ideal) (ib 3) (k6_pay5 (F := Ideal) (ib 2)
        (k6_pay5 (F := Ideal) (ib 1) (k6_pay5 (F := Ideal) (ib 0) (k6_pay2 (F := Ideal)))))) (ix2 g u)
      = ∑ n : Fin 50000, if (ids (ix2 n (0 : Fin 1))).toInt = (g.val : ℤ) then (1 : EReal) else 0 := by
  rw [sum_blocks, Fin.sum_univ_five, pay5_apply, pay5_apply, pay5_apply, pay5_apply, pay5_apply, pay2_apply, zero_add]
  simp only [hib]

end Cert.KernelIdeal.Val

end
-- ==== Proof.LibScatterRows.lean ====
import Idealize.ShloMosaic.PureOps.Ideal
import Idealize.ShloMosaic.Lib.ValueIdx

noncomputable section

open scoped BigOperators

namespace Idealize.ShloMosaic.ScatterRows

open Idealize.ShloMosaic Idealize.ShloMosaic.ValueIdx

-- An update lands at an operand index exactly when start plus window coordinate is that index on every axis.
theorem resultIdx?_eq_some {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have h0 := congrArg (fun f => (f a).val) (Option.some.inj he)
      have hb := h a
      dsimp only at h0
      omega
    · intro h0
      congr 1
      funext a
      refine Fin.ext ?_
      show (d.start j idx a + (d.window j a : Int)).toNat = (i a).val
      rw [h0 a]; omega
  · rename_i h
    constructor
    · intro he; exact absurd he (by simp)
    · intro h0
      exfalso; apply h
      intro a
      have := (i a).isLt
      rw [h0 a]; omega

variable {N B W w : Nat}

abbrev rowDims (N B W : Nat) (wf : ScatterDims.WF ⟨2, ![N, W]⟩ ⟨2, ![B, 1]⟩ ⟨2, ![B, W]⟩ [1] [0] [0] 1) :
    ScatterDims ⟨2, ![N, W]⟩ ⟨2, ![B, 1]⟩ ⟨2, ![B, W]⟩ where
  updateWindowDims := [1]
  insertedWindowDims := [0]
  scatterDimsToOperandDims := [0]
  indexVectorDim := 1
  wf := wf

variable (wf : ScatterDims.WF ⟨2, ![N, W]⟩ ⟨2, ![B, 1]⟩ ⟨2, ![B, W]⟩ [1] [0] [0] 1)

abbrev rowIdx (b : Fin B) : (⟨2, ![B, 1]⟩ : Shape).Idx := ix2 b ⟨0, Nat.one_pos⟩

theorem start_row (j : (⟨2, ![B, W]⟩ : Shape).Idx) (idx : IVec ⟨2, ![B, 1]⟩ w) :
    (rowDims N B W wf).start j idx 0 = (idx (rowIdx (j 0))).toInt := by
  unfold ScatterDims.start
  rw [dif_pos (show (0 : Fin 2) ∈ (rowDims N B W wf).scatterDimsToOperandDims from List.mem_singleton.mpr rfl)]
  have hsi : (rowDims N B W wf).siIdx j ⟨List.idxOf (0 : Fin 2) (rowDims N B W wf).scatterDimsToOperandDims,
      List.idxOf_lt_length_iff.2 (List.mem_singleton.mpr rfl)⟩ = rowIdx (j 0) := by
    funext b; refine Fin.ext ?_
    match b with
    | ⟨0, _⟩ => rfl
    | ⟨1, _⟩ => rfl
  rw [hsi]
  rfl

theorem start_col (j : (⟨2, ![B, W]⟩ : Shape).Idx) (idx : IVec ⟨2, ![B, 1]⟩ w) :
    (rowDims N B W wf).start j idx 1 = 0 := by
  unfold ScatterDims.start
  rw [dif_neg (show ¬ (1 : Fin 2) ∈ ([0] : List (Fin 2)) by decide)]

theorem window_row (j : (⟨2, ![B, W]⟩ : Shape).Idx) : (rowDims N B W wf).window j 0 = 0 := by
  unfold ScatterDims.window
  have h : ¬ (0 : Fin 2) ∈ (rowDims N B W wf).sKept := by
    show ¬ (0 : Fin 2) ∈ (List.finRange 2).filter (· ∉ ([0] : List (Fin 2)))
    decide
  rw [dif_neg h]

theorem window_col (j : (⟨2, ![B, W]⟩ : Shape).Idx) : (rowDims N B W wf).window j 1 = (j 1).val := by
  unfold ScatterDims.window
  have h : (1 : Fin 2) ∈ (rowDims N B W wf).sKept := by
    show (1 : Fin 2) ∈ (List.finRange 2).filter (· ∉ ([0] : List (Fin 2)))
    decide
  rw [dif_pos h]
  rfl

theorem resultIdx?_eq_some_iff (j : (⟨2, ![B, W]⟩ : Shape).Idx) (idx : IVec ⟨2, ![B, 1]⟩ w) (i : (⟨2, ![N, W]⟩ : Shape).Idx) :
    (rowDims N B W wf).resultIdx? j idx = some i ↔ (idx (rowIdx (j 0))).toInt = ((i 0).val : Int) ∧ (j 1).val = (i 1).val := by
  rw [resultIdx?_eq_some]
  constructor
  · intro h
    have h0 := h 0
    have h1 := h 1
    rw [start_row, window_row] at h0
    rw [start_col, window_col] at h1
    constructor <;> omega
  · rintro ⟨h0, h1⟩ a
    match a with
    | ⟨0, _⟩ =>
      show (rowDims N B W wf).start j idx 0 + ((rowDims N B W wf).window j 0 : Int) = ((i 0).val : Int)
      rw [start_row, window_row]; omega
    | ⟨1, _⟩ =>
      show (rowDims N B W wf).start j idx 1 + ((rowDims N B W wf).window j 1 : Int) = ((i 1).val : Int)
      rw [start_col, window_col]; omega

theorem hostScatterAdd_rows_apply (x : (⟨2, ![N, W]⟩ : Shape).Idx → EReal) (idx : IVec ⟨2, ![B, 1]⟩ w)
    (upd : (⟨2, ![B, W]⟩ : Shape).Idx → EReal) (c : Fin N) (n : Fin W) :
    Ideal.hostScatterAdd (rowDims N B W wf) x idx upd (ix2 c n)
      = x (ix2 c n) + ∑ b : Fin B, if (idx (rowIdx b)).toInt = (c.val : Int) then upd (ix2 b n) else 0 := by
  unfold Ideal.hostScatterAdd
  congr 1
  rw [Finset.sum_filter, sum_idx2]
  refine Finset.sum_congr rfl fun b _ => ?_
  rw [Finset.sum_eq_single n]
  · simp only [resultIdx?_eq_some_iff]
    show (if (idx (rowIdx b)).toInt = (c.val : Int) ∧ n.val = n.val then upd (ix2 b n) else 0) = _
    simp only [and_true]
  · intro n' _ hne
    rw [if_neg]
    rw [resultIdx?_eq_some_iff]
    rintro ⟨_, h1⟩
    exact hne (Fin.ext h1)
  · intro h; exact absurd (Finset.mem_univ n) h

end Idealize.ShloMosaic.ScatterRows

end
-- ==== Proof.KIVal6C.lean ====
import proofs.«404386_j43679817400704_2_alg».proof.Proof.LibScatterRows
import Idealize.ShloMosaic.PureOps.Ideal
import Idealize.ShloMosaic.Lib.ValueIdx
import Idealize.ShloMosaic.Lib.ValueIdxRank1

noncomputable section

open scoped BigOperators

namespace Cert.KernelIdeal.Val.ScatterVec

open Idealize.ShloMosaic Idealize.ShloMosaic.ValueIdx

variable {N B w : Nat}

abbrev vecDims (N B : Nat) (wf : ScatterDims.WF ⟨1, ![N]⟩ ⟨2, ![B, 1]⟩ ⟨1, ![B]⟩ [] [0] [0] 1) :
    ScatterDims ⟨1, ![N]⟩ ⟨2, ![B, 1]⟩ ⟨1, ![B]⟩ where
  updateWindowDims := []
  insertedWindowDims := [0]
  scatterDimsToOperandDims := [0]
  indexVectorDim := 1
  wf := wf

variable (wf : ScatterDims.WF ⟨1, ![N]⟩ ⟨2, ![B, 1]⟩ ⟨1, ![B]⟩ [] [0] [0] 1)

abbrev rowIdx (b : Fin B) : (⟨2, ![B, 1]⟩ : Shape).Idx := ix2 b ⟨0, Nat.one_pos⟩

theorem start_row (j : (⟨1, ![B]⟩ : Shape).Idx) (idx : IVec ⟨2, ![B, 1]⟩ w) :
    (vecDims N B wf).start j idx 0 = (idx (rowIdx (j 0))).toInt := by
  unfold ScatterDims.start
  rw [dif_pos (show (0 : Fin 1) ∈ (vecDims N B wf).scatterDimsToOperandDims from List.mem_singleton.mpr rfl)]
  have hsi : (vecDims N B wf).siIdx j ⟨List.idxOf (0 : Fin 1) (vecDims N B wf).scatterDimsToOperandDims,
      List.idxOf_lt_length_iff.2 (List.mem_singleton.mpr rfl)⟩ = rowIdx (j 0) := by
    funext b; refine Fin.ext ?_
    match b with
    | ⟨0, _⟩ => rfl
    | ⟨1, _⟩ => rfl
  rw [hsi]
  rfl

theorem window_row (j : (⟨1, ![B]⟩ : Shape).Idx) : (vecDims N B wf).window j 0 = 0 := by
  unfold ScatterDims.window
  have h : ¬ (0 : Fin 1) ∈ (vecDims N B wf).sKept := by
    show ¬ (0 : Fin 1) ∈ (List.finRange 1).filter (· ∉ ([0] : List (Fin 1)))
    decide
  rw [dif_neg h]

theorem resultIdx?_eq_some_iff (j : (⟨1, ![B]⟩ : Shape).Idx) (idx : IVec ⟨2, ![B, 1]⟩ w) (i : (⟨1, ![N]⟩ : Shape).Idx) :
    (vecDims N B wf).resultIdx? j idx = some i ↔ (idx (rowIdx (j 0))).toInt = ((i 0).val : Int) := by
  rw [ScatterRows.resultIdx?_eq_some]
  constructor
  · intro h
    have h0 := h 0
    rw [start_row, window_row] at h0
    omega
  · intro h0 a
    match a with
    | ⟨0, _⟩ =>
      show (vecDims N B wf).start j idx 0 + ((vecDims N B wf).window j 0 : Int) = ((i 0).val : Int)
      rw [start_row, window_row]; omega

theorem hostScatterAdd_vec_apply (x : (⟨1, ![N]⟩ : Shape).Idx → EReal) (idx : IVec ⟨2, ![B, 1]⟩ w)
    (upd : (⟨1, ![B]⟩ : Shape).Idx → EReal) (c : Fin N) :
    Ideal.hostScatterAdd (vecDims N B wf) x idx upd (ix1 c)
      = x (ix1 c) + ∑ b : Fin B, if (idx (rowIdx b)).toInt = (c.val : Int) then upd (ix1 b) else 0 := by
  unfold Ideal.hostScatterAdd
  congr 1
  rw [Finset.sum_filter, ← Equiv.sum_comp (idxEquiv1 (n := B)).symm]
  refine Finset.sum_congr rfl fun b _ => ?_
  show (if (vecDims N B wf).resultIdx? (ix1 b) idx = some (ix1 c) then upd (ix1 b) else 0) = _
  simp only [resultIdx?_eq_some_iff]
  rfl

end Cert.KernelIdeal.Val.ScatterVec

end
-- ==== Proof.KIVal6R.lean ====
import proofs.«404386_j43679817400704_2_alg».proof.Proof.KISpec
import proofs.«404386_j43679817400704_2_alg».proof.Proof.LibScatterRows
import proofs.«404386_j43679817400704_2_alg».proof.Proof.KIVal6C
import Idealize.ShloMosaic.Lib.ValueIdx
import Idealize.ShloMosaic.Lib.IdealHost
import Idealize.ShloMosaic.PureOps.Ideal.Laws

set_option maxRecDepth 16384

noncomputable section

open scoped BigOperators

namespace Cert.KernelIdeal.Val

open Idealize.ShloMosaic Idealize.ShloMosaic.ValueIdx
open Cert.ReferenceIdeal

theorem poolSum_apply (h : FVec Ideal S50000x64 .f32) (ids : IVec S50000x1 32) (g j : Fin 64) :
    Cert.Spec.poolSum (F := Ideal) h ids (ix2 g j)
      = ∑ n : Fin 50000, if (ids (ix2 n (0 : Fin 1))).toInt = (g.val : ℤ) then h (ix2 n j) else 0 := by
  have wf : ScatterDims.WF ⟨2, ![64, 64]⟩ ⟨2, ![50000, 1]⟩ ⟨2, ![50000, 64]⟩ [1] [0] [0] 1 := by decide
  unfold Cert.Spec.poolSum
  show Ideal.hostScatterAdd (ScatterRows.rowDims 64 50000 64 wf) _ ids h (ix2 g j) = _
  rw [ScatterRows.hostScatterAdd_rows_apply, broadcastInDim_scalar_apply, constant_apply, Ideal.ofBits_zero_f32, zero_add]
  exact Finset.sum_congr rfl fun n _ => rfl

theorem poolCnt_apply (ids : IVec S50000x1 32) (g : Fin 64) :
    Cert.Spec.poolCnt (F := Ideal) ids (ix1 g)
      = ∑ n : Fin 50000, if (ids (ix2 n (0 : Fin 1))).toInt = (g.val : ℤ) then (1 : EReal) else 0 := by
  have wf : ScatterDims.WF ⟨1, ![64]⟩ ⟨2, ![50000, 1]⟩ ⟨1, ![50000]⟩ [] [0] [0] 1 := by decide
  unfold Cert.Spec.poolCnt
  show Ideal.hostScatterAdd (ScatterVec.vecDims 64 50000 wf) _ ids _ (ix1 g) = _
  rw [ScatterVec.hostScatterAdd_vec_apply, broadcastInDim_scalar_apply, constant_apply, Ideal.ofBits_zero_f32, zero_add]
  refine Finset.sum_congr rfl fun n _ => ?_
  rw [broadcastInDim_scalar_apply, constant_apply, Ideal.ofBits_one_f32]
  rfl

end Cert.KernelIdeal.Val

end
-- ==== Proof.KIVal6H.lean ====
import proofs.«404386_j43679817400704_2_alg».proof.Proof.KISpec
import proofs.«404386_j43679817400704_2_alg».proof.Proof.Gen.KernelIdeal.Skeleton
import proofs.«404386_j43679817400704_2_alg».proof.Proof.LibBroadcastColumn
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

set_option maxRecDepth 16384

noncomputable section

open scoped BigOperators

namespace Cert.KernelIdeal.Val

open Idealize.ShloMosaic Idealize.ShloMosaic.ValueIdx
open Cert.KernelIdeal Cert.KernelIdeal.Gen

theorem truncf_id {s : Shape} {φ ψ : FTy} (x : FVec Ideal s φ) (h : ψ.bits < φ.bits) :
    (truncf ψ x h : FVec Ideal s ψ) = x := rfl

theorem bias_row_eq {m n : ℕ} (b : (⟨2, ![1, n]⟩ : Shape).Idx → EReal) (hc : (⟨2, ![1, n]⟩ : Shape).ShapeCasts ⟨2, ![1, n]⟩)
    (hb : (⟨2, ![1, n]⟩ : Shape).Broadcasts ⟨2, ![m, n]⟩) (hd : (⟨2, ![1, n]⟩ : Shape).BroadcastsInDim ⟨2, ![m, n]⟩ ![0, 1]) :
    broadcastTo ⟨2, ![m, n]⟩ (shapeCast ⟨2, ![1, n]⟩ b hc) hb = broadcastInDim ⟨2, ![m, n]⟩ ![0, 1] hd b := by
  funext i
  obtain ⟨r, c, rfl⟩ : ∃ (r : Fin m) (c : Fin n), i = ix2 r c := ⟨i 0, i 1, eq_ix2 i⟩
  rw [broadcastTo_1b_ab_apply, shapeCast_self, broadcastInDim_oneRow_apply]

theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

theorem broadcastInDim_a_a1_apply {α : Type} {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

theorem mean_eq (h : FVec Ideal Cert.ReferenceIdeal.S50000x64 .f32) (ids : IVec Cert.ReferenceIdeal.S50000x1 32)
    (sums : FVec Ideal S64x64 .f32) (cnt : FVec Ideal S64x1 .f32)
    (hs : ∀ g j : Fin 64, sums (ix2 g j) = Cert.Spec.poolSum (F := Ideal) h ids (ix2 g j))
    (hc : ∀ g : Fin 64, cnt (ix2 g (0 : Fin 1)) = Cert.Spec.poolCnt (F := Ideal) ids (ix1 g))
    (hb : S64x1.Broadcasts S64x64) :
    divf sums (broadcastTo S64x64 (maximumf cnt (broadcast S64x1 (Scalar.ofBits (F := Ideal) .f32 0x3F800000#32))) hb)
      = Cert.Spec.poolMean (F := Ideal) h ids := by
  funext i
  obtain ⟨g, j, rfl⟩ : ∃ (g j : Fin 64), i = ix2 g j := ⟨i 0, i 1, eq_ix2 i⟩
  unfold Cert.Spec.poolMean
  rw [divf_apply, hostDivf_apply, hs, broadcastTo_a1_ab_apply, maximumf_apply, broadcast_apply, hc,
    broadcastInDim_a1_ab_apply, broadcastInDim_a_a1_apply, maximumf_apply, broadcastInDim_scalar_apply, constant_apply]
  rfl

theorem head_eq (h : FVec Ideal Cert.ReferenceIdeal.S50000x64 .f32) (ids : IVec Cert.ReferenceIdeal.S50000x1 32)
    (sums : FVec Ideal S64x64 .f32) (cnt : FVec Ideal S64x1 .f32)
    (wpre : FVec Ideal S64x32 .f32) (bpre : FVec Ideal S1x32 .f32) (wlin : FVec Ideal S32x4 .f32) (blin : FVec Ideal S1x4 .f32)
    (hs : ∀ g j : Fin 64, sums (ix2 g j) = Cert.Spec.poolSum (F := Ideal) h ids (ix2 g j))
    (hc : ∀ g : Fin 64, cnt (ix2 g (0 : Fin 1)) = Cert.Spec.poolCnt (F := Ideal) ids (ix1 g)) :
    k6_pay6 (F := Ideal) sums cnt wpre bpre wlin blin = Cert.Spec.poolHead (F := Ideal) h ids wpre bpre wlin blin := by
  unfold Cert.Spec.poolHead Cert.Spec.head k6_pay6
  show addf (matmul dot_S64x32_S32x4_S64x4_1_0_0_1_n_n none
        (truncf .bf16 (addf (matmul dot_S64x64_S64x32_S64x32_1_0_0_1_n_n none
            (truncf .bf16 (divf sums (broadcastTo S64x64 (maximumf cnt (broadcast S64x1 (Scalar.ofBits (F := Ideal) .f32 0x3F800000#32))) _)) _)
            (truncf .bf16 wpre _) (constant (F := Ideal) S64x32 .f32 0x00000000#32))
          (broadcastTo S64x32 (shapeCast S1x32 bpre _) _)) _)
        (truncf .bf16 wlin _) (constant (F := Ideal) S64x4 .f32 0x00000000#32))
      (broadcastTo S64x4 (shapeCast S1x4 blin _) _) = _
  rw [truncf_id, truncf_id, truncf_id, truncf_id, matmul_zero_eq_dotGeneral, matmul_zero_eq_dotGeneral,
    mean_eq h ids sums cnt hs hc, bias_row_eq, bias_row_eq]
  rfl

end Cert.KernelIdeal.Val

end
-- ==== Proof.KIVal6.lean ====
import proofs.«404386_j43679817400704_2_alg».proof.Proof.KISpec
import proofs.«404386_j43679817400704_2_alg».proof.Proof.KIDefs6
import proofs.«404386_j43679817400704_2_alg».proof.Proof.KIVal6M
import proofs.«404386_j43679817400704_2_alg».proof.Proof.KIVal6R
import proofs.«404386_j43679817400704_2_alg».proof.Proof.KIVal6H
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Frm

variable (V : (c : Dev nD) → (b : Ref sig .tc) → Buf (Elt Ideal) ((c : Thread nD τ).loc b))

theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0 :=
  (by decide +kernel : ∀ t : Fin grid6.N, _)

theorem idx_whole6 : ∀ (t : Fin cfg6.N) (a : Fin 2), win6_2.index t a = 0 ∧ win6_3.index t a = 0 ∧ win6_4.index t a = 0
    ∧ win6_5.index t a = 0 ∧ win6_6.index t a = 0 :=
  (by decide +kernel : ∀ (t : Fin grid6.N) (a : Fin 2), _)

theorem blk0_apply (c : Dev nD) (t : Fin cfg6.N) (k : Fin 5) (hk : t.val = k.val) (r : Fin 10000) (j : Fin 64) :
    iblk6 V c 0 t (ix2 r j)
      = V c main_v79 (ix2 (⟨10000 * k.val + r.val, by have := k.isLt; have := r.isLt; omega⟩ : Fin 50000) j) := by
  obtain ⟨e00, e01, e10, e11⟩ := idx_facts6 t
  show V c main_v79 (((cfg6.win 0).blk t).view.emb (ix2 r j)) = _
  have hy : ((cfg6.win 0).blk t).view.emb (ix2 r j)
      = ix2 (⟨10000 * k.val + r.val, by have := k.isLt; have := r.isLt; omega⟩ : Fin 50000) j := by
    funext a; apply Fin.ext
    match a with
    | ⟨0, _⟩ => show win6_0.index t (0 : Fin 2) * 10000 + 1 * r.val = 10000 * k.val + r.val; omega
    | ⟨1, _⟩ => show win6_0.index t (1 : Fin 2) * 64 + 1 * j.val = j.val; omega
  rw [hy]

theorem blk1_apply (c : Dev nD) (t : Fin cfg6.N) (k : Fin 5) (hk : t.val = k.val) (r : Fin 10000) (u : Fin 1) :
    iblk6 V c 1 t (ix2 r u)
      = V c main_v80 (ix2 (⟨10000 * k.val + r.val, by have := k.isLt; have := r.isLt; omega⟩ : Fin 50000) u) := by
  obtain ⟨e00, e01, e10, e11⟩ := idx_facts6 t
  show V c main_v80 (((cfg6.win 1).blk t).view.emb (ix2 r u)) = _
  have hy : ((cfg6.win 1).blk t).view.emb (ix2 r u)
      = ix2 (⟨10000 * k.val + r.val, by have := k.isLt; have := r.isLt; omega⟩ : Fin 50000) u := by
    funext a; apply Fin.ext
    match a with
    | ⟨0, _⟩ => show win6_1.index t (0 : Fin 2) * 10000 + 1 * r.val = 10000 * k.val + r.val; omega
    | ⟨1, _⟩ => show win6_1.index t (1 : Fin 2) * 1 + 1 * u.val = u.val; omega
  rw [hy]

theorem blk2_eq (c : Dev nD) (t : Fin cfg6.N) : iblk6 V c 2 t = V c main_arg9 :=
  funext fun y => congrArg (V c main_arg9) (funext fun a => Fin.ext (win6_2.rect_emb_val_of_index_zero t a (idx_whole6 t a).1 y))

theorem blk3_eq (c : Dev nD) (t : Fin cfg6.N) : iblk6 V c 3 t = V c main_v81 :=
  funext fun y => congrArg (V c main_v81) (funext fun a => Fin.ext (win6_3.rect_emb_val_of_index_zero t a (idx_whole6 t a).2.1 y))

theorem blk4_eq (c : Dev nD) (t : Fin cfg6.N) : iblk6 V c 4 t = V c main_arg11 :=
  funext fun y => congrArg (V c main_arg11) (funext fun a => Fin.ext (win6_4.rect_emb_val_of_index_zero t a (idx_whole6 t a).2.2.1 y))

theorem blk5_eq (c : Dev nD) (t : Fin cfg6.N) : iblk6 V c 5 t = V c main_v82 :=
  funext fun y => congrArg (V c main_v82) (funext fun a => Fin.ext (win6_5.rect_emb_val_of_index_zero t a (idx_whole6 t a).2.2.2.1 y))

theorem accS_eq (c : Dev nD) (g j : Fin 64) :
    accS V c 4 (ix2 g j) = Cert.Spec.poolSum (F := Ideal) (V c main_v79) (V c main_v80) (ix2 g j) := by
  rw [poolSum_apply]
  exact sums_total (V c main_v79) (V c main_v80) (fun t => iblk6 V c 0 (pt6 t.val)) (fun t => iblk6 V c 1 (pt6 t.val))
    (fun t r j => blk0_apply V c (pt6 t.val) t (Nat.mod_eq_of_lt t.isLt) r j)
    (fun t r => blk1_apply V c (pt6 t.val) t (Nat.mod_eq_of_lt t.isLt) r 0) g j

theorem accC_eq (c : Dev nD) (g : Fin 64) :
    accC V c 4 (ix2 g (0 : Fin 1)) = Cert.Spec.poolCnt (F := Ideal) (V c main_v80) (ix1 g) := by
  rw [poolCnt_apply]
  exact counts_total (V c main_v80) (fun t => iblk6 V c 1 (pt6 t.val))
    (fun t r => blk1_apply V c (pt6 t.val) t (Nat.mod_eq_of_lt t.isLt) r 0) g 0

theorem flushed6_eq (c : Dev nD) (t : Fin cfg6.N) :
    (dat6 V c).flushed 6 t = ((cfg6.win 6).blk t).view.read (Elt Ideal) (out6_6 V c) := by
  show (cfg6.win 6).cut (grid6.coords t) ((dat6 V c).after 6 t) = _
  rw [after6_6]
  funext y
  show out6_6 V c y = out6_6 V c (((cfg6.win 6).blk t).view.emb y)
  exact congrArg (out6_6 V c) (funext fun a => Fin.ext (win6_6.rect_emb_val_of_index_zero t a (idx_whole6 t a).2.2.2.2 y)).symm

theorem mem_blk6 (t : Fin cfg6.N) (i : S64x4.Idx) :
    i ∈ ((cfg6.win 6).blk t).view.set ↔ ∀ a : Fin 2, win6_6.index t a * S64x4.size a ≤ (i a).val ∧ (i a).val < win6_6.index t a * S64x4.size a + S64x4.size a := by
  show i ∈ ((View.whole main_v83).slice (win6_6.rect t)).set ↔ _
  rw [View.set_slice_whole, Rect.mem_set_unit]
  exact Iff.rfl

theorem cover6 (i : S64x4.Idx) : ∃ t : Fin cfg6.N, (cfg6.win 6).flush t = true ∧ i ∈ ((cfg6.win 6).blk t).view.set := by
  refine ⟨pt6 4, (flush6_6 (pt6 4)).mpr rfl, ?_⟩
  have e60 := (idx_whole6 (pt6 4) 0).2.2.2.2
  have e61 := (idx_whole6 (pt6 4) 1).2.2.2.2
  have hi0 : (i 0).val < 64 := (i 0).isLt
  have hi1 : (i 1).val < 4 := (i 1).isLt
  rw [mem_blk6]
  intro a
  match a with
  | ⟨0, _⟩ => show win6_6.index (pt6 4) (0 : Fin 2) * 64 ≤ (i 0).val ∧ (i 0).val < win6_6.index (pt6 4) (0 : Fin 2) * 64 + 64; omega
  | ⟨1, _⟩ => show win6_6.index (pt6 4) (1 : Fin 2) * 4 ≤ (i 1).val ∧ (i 1).val < win6_6.index (pt6 4) (1 : Fin 2) * 4 + 4; omega

theorem arr6 (c : Dev nD) : (dat6 V c).arrAt 6 cfg6.N = out6_6 V c :=
  (dat6 V c).arrAt_eq_of_cover 6 (out6_6 V c) (fun t _ => flushed6_eq V c t) cover6

theorem final6 (c : Dev nD) : (dat6 V c).arrAt 6 cfg6.N
    = Cert.Spec.poolHead (F := Ideal) (V c main_v79) (V c main_v80) (V c main_arg9) (V c main_v81) (V c main_arg11) (V c main_v82) := by
  rw [arr6 V c]
  unfold out6_6
  rw [blk2_eq V c, blk3_eq V c, blk4_eq V c, blk5_eq V c]
  exact head_eq (V c main_v79) (V c main_v80) (accS V c 4) (accC V c 4) (V c main_arg9) (V c main_v81) (V c main_arg11)
    (V c main_v82) (accS_eq V c) (accC_eq V c)

end Cert.KernelIdeal.Val

end
-- ==== Proof.KIHost.lean ====
import proofs.«404386_j43679817400704_2_alg».proof.Proof.KISpec

noncomputable section

namespace Cert.Spec

open Idealize.ShloMosaic Cert.ReferenceIdeal Cert.ReferenceIdeal.Facts₀ Cert.ReferenceIdeal.Facts

variable {F : FTy → Type} [FloatOps F]

def srcIdx (e : IVec S2x800000 32) : IVec S850000 32 :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

def dstIdx (e : IVec S2x800000 32) : IVec S850000 32 :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

def wrapIdx (i : IVec S850000 32) : IVec S850000 32 :=
  select (cmpi .slt i (broadcastInDim S850000 ![] bcast_S_S850000 (constantI S_ 32 0#32))) (addi i (broadcastInDim S850000 ![] bcast_S_S850000 (constantI S_ 32 50000#32))) i

def degree (e : IVec S2x800000 32) : FVec F S50000 .f32 :=
  Host.scatterAdd scatter_S50000_S850000x1_S850000_n_0_0_1 (broadcastInDim S50000 ![] bcast_S_S50000 (constant S_ .f32 0x00000000#32)) (broadcastInDim S850000x1 ![0] bcast_S850000_S850000x1_0 (dstIdx e)) (broadcastInDim S850000 ![] bcast_S_S850000 (constant S_ .f32 0x3F800000#32))

def invSqrtDeg (e : IVec S2x800000 32) : FVec F S50000 .f32 :=
  select (cmpf (F := F) .ogt (degree e) (broadcastInDim S50000 ![] bcast_S_S50000 (constant S_ .f32 0x00000000#32))) (Host.rsqrt (maximumf (degree e) (broadcastInDim S50000 ![] bcast_S_S50000 (constant S_ .f32 0x3F800000#32)))) (broadcastInDim S50000 ![] bcast_S_S50000 (id (constant S_ .f32 0x00000000#32)))

def edgeNorm (e : IVec S2x800000 32) : FVec F S850000 .f32 :=
  mulf (Host.gather gather_S50000_S850000x1_S850000_n_0_n_n_0_1_1 (invSqrtDeg e) (broadcastInDim S850000x1 ![0] bcast_S850000_S850000x1_0 (wrapIdx (srcIdx e)))) (Host.gather gather_S50000_S850000x1_S850000_n_0_n_n_0_1_1 (invSqrtDeg e) (broadcastInDim S850000x1 ![0] bcast_S850000_S850000x1_0 (wrapIdx (dstIdx e))))

def agg (p : FVec F S50000x64 .f32) (e : IVec S2x800000 32) : FVec F S50000x64 .f32 :=
  Host.scatterAdd scatter_S50000x64_S850000x1_S850000x64_1_0_0_1 (broadcastInDim S50000x64 ![] bcast_S_S50000x64 (constant S_ .f32 0x00000000#32)) (broadcastInDim S850000x1 ![0] bcast_S850000_S850000x1_0 (dstIdx e)) (mulf (Host.gather gather_S50000x64_S850000x1_S850000x64_1_0_n_n_0_1_164 p (broadcastInDim S850000x1 ![0] bcast_S850000_S850000x1_0 (wrapIdx (srcIdx e)))) (broadcastInDim S850000x64 ![0, 1] bcast_S850000x1_S850000x64_0_1 (broadcastInDim S850000x1 ![0] bcast_S850000_S850000x1_0 (edgeNorm e))))

def row64 (b : FVec F S64 .f32) : FVec F S1x64 .f32 := broadcastInDim S1x64 ![1] bcast_S64_S1x64_1 b

def row32 (b : FVec F S32 .f32) : FVec F S1x32 .f32 := broadcastInDim S1x32 ![1] bcast_S32_S1x32_1 b

def row4 (b : FVec F S4 .f32) : FVec F S1x4 .f32 := broadcastInDim S1x4 ![1] bcast_S4_S1x4_1 b

def col (g : IVec S50000 32) : IVec S50000x1 32 := broadcastInDim S50000x1 ![0] bcast_S50000_S50000x1_0 g

def refOut (x : FVec F S50000x4 .f32) (e : IVec S2x800000 32) (g : IVec S50000 32)
    (w1 : FVec F S4x64 .f32) (b1 : FVec F S64 .f32) (w2 : FVec F S64x64 .f32) (b2 : FVec F S64 .f32)
    (w3 : FVec F S64x64 .f32) (b3 : FVec F S64 .f32) (wpre : FVec F S64x32 .f32) (bpre : FVec F S32 .f32)
    (wlin : FVec F S32x4 .f32) (blin : FVec F S4 .f32) : FVec F S64x4 .f32 :=
  poolHead
    (bias (agg (proj (biasRelu (agg (proj (biasRelu (agg (proj0 x w1) e) (row64 b1)) w2) e) (row64 b2)) w3) e) (row64 b3))
    (col g) wpre (row32 bpre) wlin (row4 blin)

end Cert.Spec

end
-- ==== Proof.KIChainHost.lean ====
import proofs.«404386_j43679817400704_2_alg».proof.Proof.Gen.KernelIdeal.Launch
import proofs.«404386_j43679817400704_2_alg».proof.Proof.KIHost
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen

section Layout
variable {α : Type} {a : ℕ} (x : (⟨1, ![a]⟩ : Shape).Idx → α)

theorem bcast_coord (i : Fin a) : i.val = if a = 1 then 0 else i.val := by
  split
  · have := i.isLt; omega
  · rfl

theorem shapeCast_row_eq (h : (⟨1, ![a]⟩ : Shape).ShapeCasts ⟨2, ![1, a]⟩)
    (hb : (⟨1, ![a]⟩ : Shape).BroadcastsInDim ⟨2, ![1, a]⟩ (![1] : Fin 1 → Fin 2)) :
    shapeCast ⟨2, ![1, a]⟩ x h = broadcastInDim ⟨2, ![1, a]⟩ ![1] hb x := by
  funext j
  obtain ⟨u, i, rfl⟩ : ∃ (u : Fin 1) (i : Fin a), j = ix2 u i := ⟨j 0, j 1, eq_ix2 j⟩
  refine (shapeCast_a_1a_apply x h u i).trans (broadcastInDim_apply ![1] hb x _ (ix1 i) fun ax => ?_).symm
  match ax with | ⟨0, _⟩ => exact bcast_coord i

theorem shapeCast_col_eq (h : (⟨1, ![a]⟩ : Shape).ShapeCasts ⟨2, ![a, 1]⟩)
    (hb : (⟨1, ![a]⟩ : Shape).BroadcastsInDim ⟨2, ![a, 1]⟩ (![0] : Fin 1 → Fin 2)) :
    shapeCast ⟨2, ![a, 1]⟩ x h = broadcastInDim ⟨2, ![a, 1]⟩ ![0] hb x := by
  funext j
  obtain ⟨i, u, rfl⟩ : ∃ (i : Fin a) (u : Fin 1), j = ix2 i u := ⟨j 0, j 1, eq_ix2 j⟩
  refine (shapeCast_apply x h _ (ix1 i) ?_).trans (broadcastInDim_apply ![0] hb x _ (ix1 i) fun ax => ?_).symm
  · rw [Shape.rowMajor_val_two, Shape.rowMajor_val_one]
    show i.val = i.val * 1 + u.val
    omega
  · match ax with | ⟨0, _⟩ => exact bcast_coord i

end Layout

variable (V : Valuation τ sig (Elt Ideal)) (e : IVec Cert.ReferenceIdeal.S2x800000 32)

theorem stretch0_src : StableHlo.after (hostOps0 (F := Ideal)) V main_v3 = Cert.Spec.srcIdx (V main_arg1) := by
  after_results_simp; rfl

theorem stretch0_dst : StableHlo.after (hostOps0 (F := Ideal)) V main_v6 = Cert.Spec.dstIdx (V main_arg1) := by
  after_results_simp; rfl

theorem stretch0_pos : StableHlo.after (hostOps0 (F := Ideal)) V main_v12
    = cmpf (F := Ideal) .ogt (Cert.Spec.degree (F := Ideal) (V main_arg1)) (broadcastInDim Cert.ReferenceIdeal.S50000 ![] Cert.ReferenceIdeal.Facts₀.bcast_S_S50000 (constant Cert.ReferenceIdeal.S_ .f32 0x00000000#32)) := by
  after_results_simp; rfl

theorem stretch0_rsqrt : StableHlo.after (hostOps0 (F := Ideal)) V main_v15
    = Host.rsqrt (maximumf (Cert.Spec.degree (F := Ideal) (V main_arg1)) (broadcastInDim Cert.ReferenceIdeal.S50000 ![] Cert.ReferenceIdeal.Facts₀.bcast_S_S50000 (constant Cert.ReferenceIdeal.S_ .f32 0x3F800000#32))) := by
  after_results_simp; rfl

theorem stretch0_zero : StableHlo.after (hostOps0 (F := Ideal)) V main_cst_3 = constant (F := Ideal) Cert.ReferenceIdeal.S_ .f32 0x00000000#32 := by
  after_results_simp

theorem stretch01_isd
    (h12 : V main_v12 = cmpf (F := Ideal) .ogt (Cert.Spec.degree (F := Ideal) e) (broadcastInDim Cert.ReferenceIdeal.S50000 ![] Cert.ReferenceIdeal.Facts₀.bcast_S_S50000 (constant Cert.ReferenceIdeal.S_ .f32 0x00000000#32)))
    (h15 : V main_v15 = Host.rsqrt (maximumf (Cert.Spec.degree (F := Ideal) e) (broadcastInDim Cert.ReferenceIdeal.S50000 ![] Cert.ReferenceIdeal.Facts₀.bcast_S_S50000 (constant Cert.ReferenceIdeal.S_ .f32 0x3F800000#32))))
    (hc : V main_cst_3 = constant (F := Ideal) Cert.ReferenceIdeal.S_ .f32 0x00000000#32) :
    StableHlo.after (hostOps0_1 (F := Ideal)) V main_v16 = Cert.Spec.invSqrtDeg (F := Ideal) e := by
  have h : StableHlo.after (hostOps0_1 (F := Ideal)) V main_v16 = (select (V main_v12) (V main_v15)
      (broadcastInDim S50000 ![] Facts₀.bcast_S_S50000 (id (V main_cst_3))) : S50000.Idx → EReal) := by
    after_results_simp; rfl
  rw [h, h12, h15, hc]
  rfl

theorem stretch1_row : StableHlo.after (hostOps1 (F := Ideal)) V main_v46 = Cert.Spec.row64 (F := Ideal) (V main_arg4) := by
  after_results_simp; exact shapeCast_row_eq _ _ _

theorem stretch3_row : StableHlo.after (hostOps3 (F := Ideal)) V main_v62 = Cert.Spec.row64 (F := Ideal) (V main_arg6) := by
  after_results_simp; exact shapeCast_row_eq _ _ _

theorem stretch5_row : StableHlo.after (hostOps5 (F := Ideal)) V main_v78 = Cert.Spec.row64 (F := Ideal) (V main_arg8) := by
  after_results_simp; exact shapeCast_row_eq _ _ _

theorem stretch6_col : StableHlo.after (hostOps6 (F := Ideal)) V main_v80 = Cert.Spec.col (V main_arg2) := by
  after_results_simp; exact shapeCast_col_eq _ _ _

theorem stretch6_row32 : StableHlo.after (hostOps6 (F := Ideal)) V main_v81 = Cert.Spec.row32 (F := Ideal) (V main_arg10) := by
  after_results_simp; exact shapeCast_row_eq _ _ _

theorem stretch6_row4 : StableHlo.after (hostOps6 (F := Ideal)) V main_v82 = Cert.Spec.row4 (F := Ideal) (V main_arg12) := by
  after_results_simp; exact shapeCast_row_eq _ _ _

variable (h16 : V main_v16 = Cert.Spec.invSqrtDeg (F := Ideal) e) (h3 : V main_v3 = Cert.Spec.srcIdx e)
  (h6 : V main_v6 = Cert.Spec.dstIdx e) (h31 : V main_v31 = Cert.Spec.edgeNorm (F := Ideal) e)
include h3 h6

include h16 in
theorem stretch02_norm : StableHlo.after (hostOps0_2 (F := Ideal)) V main_v31 = Cert.Spec.edgeNorm (F := Ideal) e := by
  after_results_simp; rw [h16, h3, h6]; rfl

include h31 in
theorem stretch1_agg : StableHlo.after (hostOps1 (F := Ideal)) V main_v45 = Cert.Spec.agg (F := Ideal) (V main_v32) e := by
  after_results_simp; rw [h3, h6, h31]; rfl

include h31 in
theorem stretch3_agg : StableHlo.after (hostOps3 (F := Ideal)) V main_v61 = Cert.Spec.agg (F := Ideal) (V main_v48) e := by
  after_results_simp; rw [h3, h6, h31]; rfl

include h31 in
theorem stretch5_agg : StableHlo.after (hostOps5 (F := Ideal)) V main_v77 = Cert.Spec.agg (F := Ideal) (V main_v64) e := by
  after_results_simp; rw [h3, h6, h31]; rfl

end Cert.KernelIdeal.Val

end
-- ==== Proof.KIChain.lean ====
import proofs.«404386_j43679817400704_2_alg».proof.Proof.KIRun
import proofs.«404386_j43679817400704_2_alg».proof.Proof.KIValA
import proofs.«404386_j43679817400704_2_alg».proof.Proof.KIValB
import proofs.«404386_j43679817400704_2_alg».proof.Proof.KIVal6
import proofs.«404386_j43679817400704_2_alg».proof.Proof.KIHost
import proofs.«404386_j43679817400704_2_alg».proof.Proof.KIChainHost

set_option maxRecDepth 16384

noncomputable section

namespace Cert.KernelIdeal.Val

open Idealize.ShloMosaic Idealize.ShloMosaic.TcCoe Idealize.SL.Sem
open Cert.KernelIdeal Cert.KernelIdeal.Gen Cert.KernelIdeal.Frm Cert.Spec

variable (m : (ℓ : Loc nD τ sig) → Buf (Elt Ideal) ℓ) (ρ : Dev nD → PrngReg) (c : Dev nD)

abbrev edgeRefs : List (Ref sig .tc) := [main_v3, main_v6, main_v31]

-- The three edge buffers hold the edge list's source nodes, destination nodes and normalisation.
def Edges (X : Valuation τ sig (Elt Ideal)) : Prop :=
  X main_v3 = srcIdx (X0 m ρ c main_arg1) ∧ X main_v6 = dstIdx (X0 m ρ c main_arg1)
    ∧ X main_v31 = edgeNorm (F := Ideal) (X0 m ρ c main_arg1)

variable {m ρ c} in
theorem Edges.keep {X X' : Valuation τ sig (Elt Ideal)} (h : Edges m ρ c X) (e : ∀ b ∈ edgeRefs, X' b = X b) : Edges m ρ c X' :=
  ⟨(e _ (by decide)).trans h.1, (e _ (by decide)).trans h.2.1, (e _ (by decide)).trans h.2.2⟩

-- The first three stretches compute them; the second and third do not write the node buffers.
theorem X3_edges : Edges m ρ c (X3 m ρ c) :=
  have s := (X2_of m ρ c main_v3 (by decide)).trans (stretch0_src (X0 m ρ c))
  have d := (X2_of m ρ c main_v6 (by decide)).trans (stretch0_dst (X0 m ρ c))
  ⟨(X3_of m ρ c main_v3 (by decide)).trans s, (X3_of m ρ c main_v6 (by decide)).trans d,
    stretch02_norm (X2 m ρ c) _ (stretch01_isd (X1 m ρ c) _ (stretch0_pos _) (stretch0_rsqrt _) (stretch0_zero _)) s d⟩

-- No later item writes an edge buffer.
theorem X4_edges : Edges m ρ c (X4 m ρ c) :=
  (X3_edges m ρ c).keep fun b hb => X4_of_ne m ρ c b ((by decide : ∀ b ∈ edgeRefs, ∀ w, Pipeline.arrRef spec0 w ≠ b) b hb)
theorem X7_edges : Edges m ρ c (X7 m ρ c) :=
  (X4_edges m ρ c).keep fun b hb => (X7_of_ne m ρ c b ((by decide : ∀ b ∈ edgeRefs, ∀ w, Pipeline.arrRef spec2 w ≠ b) b hb)).trans <|
    (X6_of_ne m ρ c b ((by decide : ∀ b ∈ edgeRefs, ∀ w, Pipeline.arrRef spec1 w ≠ b) b hb)).trans <|
    X5_of m ρ c b ((by decide : ∀ b ∈ edgeRefs, b ∉ hostOps1_W) b hb)
theorem X10_edges : Edges m ρ c (X10 m ρ c) :=
  (X7_edges m ρ c).keep fun b hb => (X10_of_ne m ρ c b ((by decide : ∀ b ∈ edgeRefs, ∀ w, Pipeline.arrRef spec4 w ≠ b) b hb)).trans <|
    (X9_of_ne m ρ c b ((by decide : ∀ b ∈ edgeRefs, ∀ w, Pipeline.arrRef spec3 w ≠ b) b hb)).trans <|
    X8_of m ρ c b ((by decide : ∀ b ∈ edgeRefs, b ∉ hostOps3_W) b hb)

abbrev P1 := proj0 (F := Ideal) (X0 m ρ c main_arg0) (X0 m ρ c main_arg3)
abbrev H1 :=
  biasRelu (F := Ideal) (agg (F := Ideal) (P1 m ρ c) (X0 m ρ c main_arg1)) (row64 (F := Ideal) (X0 m ρ c main_arg4))
abbrev P2 := proj (F := Ideal) (H1 m ρ c) (X0 m ρ c main_arg5)
abbrev H2 :=
  biasRelu (F := Ideal) (agg (F := Ideal) (P2 m ρ c) (X0 m ρ c main_arg1)) (row64 (F := Ideal) (X0 m ρ c main_arg6))
abbrev P3 := proj (F := Ideal) (H2 m ρ c) (X0 m ρ c main_arg7)
abbrev H3 :=
  bias (F := Ideal) (agg (F := Ideal) (P3 m ρ c) (X0 m ρ c main_arg1)) (row64 (F := Ideal) (X0 m ρ c main_arg8))

-- Each layer: a dense product, the normalised adjacency applied to it, the bias added (clamped at zero in the first two layers).
theorem X6_out : X6 m ρ c main_v47 = H1 m ρ c :=
  have e := X4_edges m ρ c
  (X6_arr m ρ c 2).trans <| (final1 (XV5 m ρ) c).trans <| congrArg₂ (biasRelu (F := Ideal))
    ((stretch1_agg (X4 m ρ c) _ e.1 e.2.1 e.2.2).trans <| congrArg (agg (F := Ideal) · _) <|
      (X4_arr m ρ c 2).trans <| (final0 (XV3 m ρ) c).trans <|
        congrArg₂ (proj0 (F := Ideal)) (X3_kept m ρ c main_arg0 (by decide)) (X3_kept m ρ c main_arg3 (by decide)))
    ((stretch1_row (X4 m ρ c)).trans <| congrArg (row64 (F := Ideal)) (X4_kept m ρ c main_arg4 (by decide)))

theorem X9_out : X9 m ρ c main_v63 = H2 m ρ c :=
  have e := X7_edges m ρ c
  (X9_arr m ρ c 2).trans <| (final3 (XV8 m ρ) c).trans <| congrArg₂ (biasRelu (F := Ideal))
    ((stretch3_agg (X7 m ρ c) _ e.1 e.2.1 e.2.2).trans <| congrArg (agg (F := Ideal) · _) <|
      (X7_arr m ρ c 2).trans <| (final2 (XV6 m ρ) c).trans <|
        congrArg₂ (proj (F := Ideal)) (X6_out m ρ c) (X6_kept m ρ c main_arg5 (by decide)))
    ((stretch3_row (X7 m ρ c)).trans <| congrArg (row64 (F := Ideal)) (X7_kept m ρ c main_arg6 (by decide)))

theorem X12_out : X12 m ρ c main_v79 = H3 m ρ c :=
  have e := X10_edges m ρ c
  (X12_arr m ρ c 2).trans <| (final5 (XV11 m ρ) c).trans <| congrArg₂ (bias (F := Ideal))
    ((stretch5_agg (X10 m ρ c) _ e.1 e.2.1 e.2.2).trans <| congrArg (agg (F := Ideal) · _) <|
      (X10_arr m ρ c 2).trans <| (final4 (XV9 m ρ) c).trans <|
        congrArg₂ (proj (F := Ideal)) (X9_out m ρ c) (X9_kept m ρ c main_arg7 (by decide)))
    ((stretch5_row (X10 m ρ c)).trans <| congrArg (row64 (F := Ideal)) (X10_kept m ρ c main_arg8 (by decide)))

-- The last call leaves the per-graph means of the third layer's output through the head.
abbrev kOut := refOut (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

theorem result_eq : X14 m ρ c main_v83 = kOut m c := by
  refine (X14_arr m ρ c 6).trans <| (final6 (XV13 m ρ) c).trans ?_
  rw [show XV13 m ρ c main_v79 = H3 m ρ c from (X13_of m ρ c main_v79 (by decide)).trans (X12_out m ρ c),
    show XV13 m ρ c main_v80 = col (X0 m ρ c main_arg2) from
      (stretch6_col (X12 m ρ c)).trans <| congrArg col (X12_kept m ρ c main_arg2 (by decide)),
    show XV13 m ρ c main_arg9 = X0 m ρ c main_arg9 from X13_kept m ρ c main_arg9 (by decide),
    show XV13 m ρ c main_v81 = row32 (F := Ideal) (X0 m ρ c main_arg10) from
      (stretch6_row32 (X12 m ρ c)).trans <| congrArg (row32 (F := Ideal)) (X12_kept m ρ c main_arg10 (by decide)),
    show XV13 m ρ c main_arg11 = X0 m ρ c main_arg11 from X13_kept m ρ c main_arg11 (by decide),
    show XV13 m ρ c main_v82 = row4 (F := Ideal) (X0 m ρ c main_arg12) from
      (stretch6_row4 (X12 m ρ c)).trans <| congrArg (row4 (F := Ideal)) (X12_kept m ρ c main_arg12 (by decide))]
  rfl

-- Every weakly fair execution ends with the result at the reference's function of the arguments, and the arguments as launched.
theorem run_result : θ_run defs (onTc (τ := τ) (main (F := Ideal))) ⟨m, fun _ => 0, ρ⟩ (fun r => ∀ c : Dev nD,
    r.2.mem ((c.tc : Thread nD τ).loc main_v83) = kOut m c
      ∧ argRefs.Forall fun b => r.2.mem ((c.tc : Thread nD τ).loc b) = m ((c.tc : Thread nD τ).loc b)) :=
  (θ_run defs _ _).mono (fun r h c => ⟨(h c _ (mem_uc main_v83 (by decide))).trans (result_eq m ρ c), args_kept m ρ r.2.mem c (h c)⟩)
    (run_all m ρ)

end Cert.KernelIdeal.Val

end
-- ==== Proof.lean ====
import proofs.«404386_j43679817400704_2_alg».proof.Defs
import proofs.«404386_j43679817400704_2_alg».proof.Proof.Gen.Kernel
import proofs.«404386_j43679817400704_2_alg».proof.Proof.Gen.KernelIdeal
import proofs.«404386_j43679817400704_2_alg».proof.Proof.Gen.ReferenceIdeal
import proofs.«404386_j43679817400704_2_alg».proof.Proof.Gen.Pre_finite_inputs
import proofs.«404386_j43679817400704_2_alg».proof.Proof.KRun
import proofs.«404386_j43679817400704_2_alg».proof.Proof.KIChain
import proofs.«404386_j43679817400704_2_alg».proof.Proof.RefRun

noncomputable section

namespace Cert.Proof

open Idealize.ShloMosaic Idealize.ShloMosaic.TcCoe Idealize.SL.Sem

-- The reference's result is by definition the specification's composition of its own arguments, which agree with the kernel's.
theorem algebraic : Cert.algebraic_KernelIdeal_ReferenceIdeal := fun m ρ m' ρ' _ hagree =>
  ⟨_, Cert.KernelIdeal.Val.run_result m ρ,
    (θ_run Cert.ReferenceIdeal.defs _ _).mono (fun r h c => ⟨(h c).1.trans (by
        dsimp only [Cert.KernelIdeal.Val.kOut]
        obtain ⟨h0, h1, h2, h3, h4, h5, h6, h7, h8, h9, h10, h11, h12⟩ := hagree c
        rw [← h0, ← h1, ← h2, ← h3, ← h4, ← h5, ← h6, ← h7, ← h8, ← h9, ← h10, ← h11, ← h12]
        rfl), (h c).2⟩)
      (Cert.ReferenceIdeal.Value.run (F := Ideal) m' ρ')⟩

theorem claim : Cert.Claim := ⟨Cert.Kernel.Gen.facts, Cert.KernelIdeal.Gen.facts, Cert.ReferenceIdeal.Gen.facts, Cert.Pre_finite_inputs.Gen.facts,
  fun m ρ _ => Cert.Kernel.Frm.frame m ρ, fun m ρ _ => Cert.KernelIdeal.Frm.frame m ρ,
  fun m ρ _ => (θ_run Cert.ReferenceIdeal.defs _ _).mono (fun _ h c => (h c).2) (Cert.ReferenceIdeal.Value.run (F := Ideal) m ρ),
  trivial, algebraic⟩

end Cert.Proof

end
